-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![24576, 768]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S24576x768 : Shape := ⟨2, ![24576, 768]⟩
abbrev S_ : Shape := ⟨0, ![]⟩

class Facts : Prop where
  bcast_S_S24576x768 : S_.BroadcastsInDim S24576x768 (![] : Fin 0 → Fin S24576x768.rank)
  reducesTo_S24576x768_S_d0_1 : S24576x768.ReducesTo [0, 1] S_
  h_S_ : 0 < S_.numel

variable [Facts]

def fn {F : FTy → Type} [FloatOps F] (main_arg0 : FVec F S24576x768 .f32) : IVec S_ 1 :=
  let main_v0 : FVec F S24576x768 .f32 := Host.absf main_arg0
  let main_cst : FVec F S_ .f32 := constant S_ .f32 0x7F800000#32
  let main_v1 : FVec F S24576x768 .f32 := broadcastInDim S24576x768 ![] bcast_S_S24576x768 main_cst
  let main_v2 : IVec S24576x768 1 := cmpf .olt main_v0 main_v1
  let main_c : IVec S_ 1 := constantI S_ 1 1#1
  let main_v3 : IVec S_ 1 := (fun x v => Host.reduce IntOp.andi x v reducesTo_S24576x768_S_d0_1 h_S_) main_v2 main_c
  main_v3
-- ==== Kernel.lean ====
abbrev S1536x768 : Shape := ⟨2, ![1536, 768]⟩
abbrev S1x768 : Shape := ⟨2, ![1, 768]⟩
abbrev S2x192x768 : Shape := ⟨3, ![2, 192, 768]⟩
abbrev S2 : Shape := ⟨1, ![2]⟩
abbrev S16x768 : Shape := ⟨2, ![16, 768]⟩
abbrev S16 : Shape := ⟨1, ![16]⟩
abbrev S1 : Shape := ⟨1, ![1]⟩
abbrev S_ : Shape := ⟨0, ![]⟩
abbrev S1x192x768 : Shape := ⟨3, ![1, 192, 768]⟩
abbrev S192x768 : Shape := ⟨2, ![192, 768]⟩
abbrev S768 : Shape := ⟨1, ![768]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1x768, .f32⟩
  | .local _ .vmem, ⟨1, _⟩ => ⟨S2x192x768, .f32⟩
  | .local _ .vmem, ⟨2, _⟩ => ⟨S16x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch2 : Ref sig .tc := ⟨.vmem, 2, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v9 : BitVec 1 := Scalar.cmpi .ne v2 c0_i32_5
  let v10 : BitVec 32 := Scalar.extui v9
  let c0_i32_6 : BitVec 32 := 0#32
  let v11 : BitVec 1 := Scalar.cmpi .ne v10 c0_i32_6
  v11

def k0_dev1 : Nat :=
  let c0_i32_209 : BitVec 32 := 0#32
  let c0_i32_207 : BitVec 32 := 0#32
  let c1_i32_208 : BitVec 32 := 1#32
  let v275 : BitVec 32 := Scalar.muli c0_i32_207 c1_i32_208
  let v276 : BitVec 32 := Scalar.addi c0_i32_209 v275
  v276.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v12 : BitVec 1 := Scalar.cmpi .ne v2 c1_i32_7
  let v13 : BitVec 32 := Scalar.extui v12
  let c0_i32_8 : BitVec 32 := 0#32
  let v14 : BitVec 1 := Scalar.cmpi .ne v13 c0_i32_8
  v14

def k0_dev2 : Nat :=
  let c0_i32_209 : BitVec 32 := 0#32
  let c1_i32_207 : BitVec 32 := 1#32
  let c1_i32_208 : BitVec 32 := 1#32
  let v275 : BitVec 32 := Scalar.muli c1_i32_207 c1_i32_208
  let v276 : BitVec 32 := Scalar.addi c0_i32_209 v275
  v276.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v15 : BitVec 1 := Scalar.cmpi .ne v2 c2_i32
  let v16 : BitVec 32 := Scalar.extui v15
  let c0_i32_9 : BitVec 32 := 0#32
  let v17 : BitVec 1 := Scalar.cmpi .ne v16 c0_i32_9
  v17

def k0_dev3 : Nat :=
  let c0_i32_209 : BitVec 32 := 0#32
  let c2_i32_207 : BitVec 32 := 2#32
  let c1_i32_208 : BitVec 32 := 1#32
  let v275 : BitVec 32 := Scalar.muli c2_i32_207 c1_i32_208
  let v276 : BitVec 32 := Scalar.addi c0_i32_209 v275
  v276.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v18 : BitVec 1 := Scalar.cmpi .ne v2 c3_i32
  let v19 : BitVec 32 := Scalar.extui v18
  let c0_i32_10 : BitVec 32 := 0#32
  let v20 : BitVec 1 := Scalar.cmpi .ne v19 c0_i32_10
  v20

def k0_dev4 : Nat :=
  let c0_i32_209 : BitVec 32 := 0#32
  let c3_i32_207 : BitVec 32 := 3#32
  let c1_i32_208 : BitVec 32 := 1#32
  let v275 : BitVec 32 := Scalar.muli c3_i32_207 c1_i32_208
  let v276 : BitVec 32 := Scalar.addi c0_i32_209 v275
  v276.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v21 : BitVec 1 := Scalar.cmpi .ne v2 c4_i32
  let v22 : BitVec 32 := Scalar.extui v21
  let c0_i32_11 : BitVec 32 := 0#32
  let v23 : BitVec 1 := Scalar.cmpi .ne v22 c0_i32_11
  v23

def k0_dev5 : Nat :=
  let c0_i32_209 : BitVec 32 := 0#32
  let c4_i32_207 : BitVec 32 := 4#32
  let c1_i32_208 : BitVec 32 := 1#32
  let v275 : BitVec 32 := Scalar.muli c4_i32_207 c1_i32_208
  let v276 : BitVec 32 := Scalar.addi c0_i32_209 v275
  v276.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v24 : BitVec 1 := Scalar.cmpi .ne v2 c5_i32
  let v25 : BitVec 32 := Scalar.extui v24
  let c0_i32_12 : BitVec 32 := 0#32
  let v26 : BitVec 1 := Scalar.cmpi .ne v25 c0_i32_12
  v26

def k0_dev6 : Nat :=
  let c0_i32_209 : BitVec 32 := 0#32
  let c5_i32_207 : BitVec 32 := 5#32
  let c1_i32_208 : BitVec 32 := 1#32
  let v275 : BitVec 32 := Scalar.muli c5_i32_207 c1_i32_208
  let v276 : BitVec 32 := Scalar.addi c0_i32_209 v275
  v276.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v27 : BitVec 1 := Scalar.cmpi .ne v2 c6_i32
  let v28 : BitVec 32 := Scalar.extui v27
  let c0_i32_13 : BitVec 32 := 0#32
  let v29 : BitVec 1 := Scalar.cmpi .ne v28 c0_i32_13
  v29

def k0_dev7 : Nat :=
  let c0_i32_209 : BitVec 32 := 0#32
  let c6_i32_207 : BitVec 32 := 6#32
  let c1_i32_208 : BitVec 32 := 1#32
  let v275 : BitVec 32 := Scalar.muli c6_i32_207 c1_i32_208
  let v276 : BitVec 32 := Scalar.addi c0_i32_209 v275
  v276.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v30 : BitVec 1 := Scalar.cmpi .ne v2 c7_i32
  let v31 : BitVec 32 := Scalar.extui v30
  let c0_i32_14 : BitVec 32 := 0#32
  let v32 : BitVec 1 := Scalar.cmpi .ne v31 c0_i32_14
  v32

def k0_dev8 : Nat :=
  let c0_i32_209 : BitVec 32 := 0#32
  let c7_i32_207 : BitVec 32 := 7#32
  let c1_i32_208 : BitVec 32 := 1#32
  let v275 : BitVec 32 := Scalar.muli c7_i32_207 c1_i32_208
  let v276 : BitVec 32 := Scalar.addi c0_i32_209 v275
  v276.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v33 : BitVec 1 := Scalar.cmpi .ne v2 c8_i32
  let v34 : BitVec 32 := Scalar.extui v33
  let c0_i32_15 : BitVec 32 := 0#32
  let v35 : BitVec 1 := Scalar.cmpi .ne v34 c0_i32_15
  v35

def k0_dev9 : Nat :=
  let c0_i32_209 : BitVec 32 := 0#32
  let c8_i32_207 : BitVec 32 := 8#32
  let c1_i32_208 : BitVec 32 := 1#32
  let v275 : BitVec 32 := Scalar.muli c8_i32_207 c1_i32_208
  let v276 : BitVec 32 := Scalar.addi c0_i32_209 v275
  v276.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 1 := Scalar.cmpi .ne v2 c9_i32
  let v37 : BitVec 32 := Scalar.extui v36
  let c0_i32_16 : BitVec 32 := 0#32
  let v38 : BitVec 1 := Scalar.cmpi .ne v37 c0_i32_16
  v38

def k0_dev10 : Nat :=
  let c0_i32_209 : BitVec 32 := 0#32
  let c9_i32_207 : BitVec 32 := 9#32
  let c1_i32_208 : BitVec 32 := 1#32
  let v275 : BitVec 32 := Scalar.muli c9_i32_207 c1_i32_208
  let v276 : BitVec 32 := Scalar.addi c0_i32_209 v275
  v276.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v39 : BitVec 1 := Scalar.cmpi .ne v2 c10_i32
  let v40 : BitVec 32 := Scalar.extui v39
  let c0_i32_17 : BitVec 32 := 0#32
  let v41 : BitVec 1 := Scalar.cmpi .ne v40 c0_i32_17
  v41

def k0_dev11 : Nat :=
  let c0_i32_209 : BitVec 32 := 0#32
  let c10_i32_207 : BitVec 32 := 10#32
  let c1_i32_208 : BitVec 32 := 1#32
  let v275 : BitVec 32 := Scalar.muli c10_i32_207 c1_i32_208
  let v276 : BitVec 32 := Scalar.addi c0_i32_209 v275
  v276.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v42 : BitVec 1 := Scalar.cmpi .ne v2 c11_i32
  let v43 : BitVec 32 := Scalar.extui v42
  let c0_i32_18 : BitVec 32 := 0#32
  let v44 : BitVec 1 := Scalar.cmpi .ne v43 c0_i32_18
  v44

def k0_dev12 : Nat :=
  let c0_i32_209 : BitVec 32 := 0#32
  let c11_i32_207 : BitVec 32 := 11#32
  let c1_i32_208 : BitVec 32 := 1#32
  let v275 : BitVec 32 := Scalar.muli c11_i32_207 c1_i32_208
  let v276 : BitVec 32 := Scalar.addi c0_i32_209 v275
  v276.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v45 : BitVec 1 := Scalar.cmpi .ne v2 c12_i32
  let v46 : BitVec 32 := Scalar.extui v45
  let c0_i32_19 : BitVec 32 := 0#32
  let v47 : BitVec 1 := Scalar.cmpi .ne v46 c0_i32_19
  v47

def k0_dev13 : Nat :=
  let c0_i32_209 : BitVec 32 := 0#32
  let c12_i32_207 : BitVec 32 := 12#32
  let c1_i32_208 : BitVec 32 := 1#32
  let v275 : BitVec 32 := Scalar.muli c12_i32_207 c1_i32_208
  let v276 : BitVec 32 := Scalar.addi c0_i32_209 v275
  v276.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v48 : BitVec 1 := Scalar.cmpi .ne v2 c13_i32
  let v49 : BitVec 32 := Scalar.extui v48
  let c0_i32_20 : BitVec 32 := 0#32
  let v50 : BitVec 1 := Scalar.cmpi .ne v49 c0_i32_20
  v50

def k0_dev14 : Nat :=
  let c0_i32_209 : BitVec 32 := 0#32
  let c13_i32_207 : BitVec 32 := 13#32
  let c1_i32_208 : BitVec 32 := 1#32
  let v275 : BitVec 32 := Scalar.muli c13_i32_207 c1_i32_208
  let v276 : BitVec 32 := Scalar.addi c0_i32_209 v275
  v276.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v51 : BitVec 1 := Scalar.cmpi .ne v2 c14_i32
  let v52 : BitVec 32 := Scalar.extui v51
  let c0_i32_21 : BitVec 32 := 0#32
  let v53 : BitVec 1 := Scalar.cmpi .ne v52 c0_i32_21
  v53

def k0_dev15 : Nat :=
  let c0_i32_209 : BitVec 32 := 0#32
  let c14_i32_207 : BitVec 32 := 14#32
  let c1_i32_208 : BitVec 32 := 1#32
  let v275 : BitVec 32 := Scalar.muli c14_i32_207 c1_i32_208
  let v276 : BitVec 32 := Scalar.addi c0_i32_209 v275
  v276.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v54 : BitVec 1 := Scalar.cmpi .ne v2 c15_i32
  let v55 : BitVec 32 := Scalar.extui v54
  let c0_i32_22 : BitVec 32 := 0#32
  let v56 : BitVec 1 := Scalar.cmpi .ne v55 c0_i32_22
  v56

def k0_dev16 : Nat :=
  let c0_i32_209 : BitVec 32 := 0#32
  let c15_i32_207 : BitVec 32 := 15#32
  let c1_i32_208 : BitVec 32 := 1#32
  let v275 : BitVec 32 := Scalar.muli c15_i32_207 c1_i32_208
  let v276 : BitVec 32 := Scalar.addi c0_i32_209 v275
  v276.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v171 : Index := Scalar.indexCast v2
  let c0_135 : Index := 0#32
  ![v171.toNat, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_137 : BitVec 32 := 0#32
  let v175 : BitVec 1 := Scalar.cmpi .ne v2 c0_i32_137
  let v176 : BitVec 32 := Scalar.extui v175
  let c0_i32_138 : BitVec 32 := 0#32
  let v177 : BitVec 1 := Scalar.cmpi .ne v176 c0_i32_138
  v177

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev17 : Nat :=
  let c0_i32_209 : BitVec 32 := 0#32
  let c0_i32_207 : BitVec 32 := 0#32
  let c1_i32_208 : BitVec 32 := 1#32
  let v275 : BitVec 32 := Scalar.muli c0_i32_207 c1_i32_208
  let v276 : BitVec 32 := Scalar.addi c0_i32_209 v275
  v276.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v178 : BitVec 1 := Scalar.cmpi .ne v2 c1_i32_139
  let v179 : BitVec 32 := Scalar.extui v178
  let c0_i32_140 : BitVec 32 := 0#32
  let v180 : BitVec 1 := Scalar.cmpi .ne v179 c0_i32_140
  v180

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev18 : Nat :=
  let c0_i32_209 : BitVec 32 := 0#32
  let c1_i32_207 : BitVec 32 := 1#32
  let c1_i32_208 : BitVec 32 := 1#32
  let v275 : BitVec 32 := Scalar.muli c1_i32_207 c1_i32_208
  let v276 : BitVec 32 := Scalar.addi c0_i32_209 v275
  v276.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_141 : BitVec 32 := 2#32
  let v181 : BitVec 1 := Scalar.cmpi .ne v2 c2_i32_141
  let v182 : BitVec 32 := Scalar.extui v181
  let c0_i32_142 : BitVec 32 := 0#32
  let v183 : BitVec 1 := Scalar.cmpi .ne v182 c0_i32_142
  v183

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev19 : Nat :=
  let c0_i32_209 : BitVec 32 := 0#32
  let c2_i32_207 : BitVec 32 := 2#32
  let c1_i32_208 : BitVec 32 := 1#32
  let v275 : BitVec 32 := Scalar.muli c2_i32_207 c1_i32_208
  let v276 : BitVec 32 := Scalar.addi c0_i32_209 v275
  v276.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_143 : BitVec 32 := 3#32
  let v184 : BitVec 1 := Scalar.cmpi .ne v2 c3_i32_143
  let v185 : BitVec 32 := Scalar.extui v184
  let c0_i32_144 : BitVec 32 := 0#32
  let v186 : BitVec 1 := Scalar.cmpi .ne v185 c0_i32_144
  v186

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev20 : Nat :=
  let c0_i32_209 : BitVec 32 := 0#32
  let c3_i32_207 : BitVec 32 := 3#32
  let c1_i32_208 : BitVec 32 := 1#32
  let v275 : BitVec 32 := Scalar.muli c3_i32_207 c1_i32_208
  let v276 : BitVec 32 := Scalar.addi c0_i32_209 v275
  v276.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_145 : BitVec 32 := 4#32
  let v187 : BitVec 1 := Scalar.cmpi .ne v2 c4_i32_145
  let v188 : BitVec 32 := Scalar.extui v187
  let c0_i32_146 : BitVec 32 := 0#32
  let v189 : BitVec 1 := Scalar.cmpi .ne v188 c0_i32_146
  v189

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev21 : Nat :=
  let c0_i32_209 : BitVec 32 := 0#32
  let c4_i32_207 : BitVec 32 := 4#32
  let c1_i32_208 : BitVec 32 := 1#32
  let v275 : BitVec 32 := Scalar.muli c4_i32_207 c1_i32_208
  let v276 : BitVec 32 := Scalar.addi c0_i32_209 v275
  v276.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_147 : BitVec 32 := 5#32
  let v190 : BitVec 1 := Scalar.cmpi .ne v2 c5_i32_147
  let v191 : BitVec 32 := Scalar.extui v190
  let c0_i32_148 : BitVec 32 := 0#32
  let v192 : BitVec 1 := Scalar.cmpi .ne v191 c0_i32_148
  v192

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev22 : Nat :=
  let c0_i32_209 : BitVec 32 := 0#32
  let c5_i32_207 : BitVec 32 := 5#32
  let c1_i32_208 : BitVec 32 := 1#32
  let v275 : BitVec 32 := Scalar.muli c5_i32_207 c1_i32_208
  let v276 : BitVec 32 := Scalar.addi c0_i32_209 v275
  v276.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_149 : BitVec 32 := 6#32
  let v193 : BitVec 1 := Scalar.cmpi .ne v2 c6_i32_149
  let v194 : BitVec 32 := Scalar.extui v193
  let c0_i32_150 : BitVec 32 := 0#32
  let v195 : BitVec 1 := Scalar.cmpi .ne v194 c0_i32_150
  v195

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev23 : Nat :=
  let c0_i32_209 : BitVec 32 := 0#32
  let c6_i32_207 : BitVec 32 := 6#32
  let c1_i32_208 : BitVec 32 := 1#32
  let v275 : BitVec 32 := Scalar.muli c6_i32_207 c1_i32_208
  let v276 : BitVec 32 := Scalar.addi c0_i32_209 v275
  v276.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_151 : BitVec 32 := 7#32
  let v196 : BitVec 1 := Scalar.cmpi .ne v2 c7_i32_151
  let v197 : BitVec 32 := Scalar.extui v196
  let c0_i32_152 : BitVec 32 := 0#32
  let v198 : BitVec 1 := Scalar.cmpi .ne v197 c0_i32_152
  v198

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev24 : Nat :=
  let c0_i32_209 : BitVec 32 := 0#32
  let c7_i32_207 : BitVec 32 := 7#32
  let c1_i32_208 : BitVec 32 := 1#32
  let v275 : BitVec 32 := Scalar.muli c7_i32_207 c1_i32_208
  let v276 : BitVec 32 := Scalar.addi c0_i32_209 v275
  v276.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_153 : BitVec 32 := 8#32
  let v199 : BitVec 1 := Scalar.cmpi .ne v2 c8_i32_153
  let v200 : BitVec 32 := Scalar.extui v199
  let c0_i32_154 : BitVec 32 := 0#32
  let v201 : BitVec 1 := Scalar.cmpi .ne v200 c0_i32_154
  v201

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev25 : Nat :=
  let c0_i32_209 : BitVec 32 := 0#32
  let c8_i32_207 : BitVec 32 := 8#32
  let c1_i32_208 : BitVec 32 := 1#32
  let v275 : BitVec 32 := Scalar.muli c8_i32_207 c1_i32_208
  let v276 : BitVec 32 := Scalar.addi c0_i32_209 v275
  v276.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_155 : BitVec 32 := 9#32
  let v202 : BitVec 1 := Scalar.cmpi .ne v2 c9_i32_155
  let v203 : BitVec 32 := Scalar.extui v202
  let c0_i32_156 : BitVec 32 := 0#32
  let v204 : BitVec 1 := Scalar.cmpi .ne v203 c0_i32_156
  v204

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev26 : Nat :=
  let c0_i32_209 : BitVec 32 := 0#32
  let c9_i32_207 : BitVec 32 := 9#32
  let c1_i32_208 : BitVec 32 := 1#32
  let v275 : BitVec 32 := Scalar.muli c9_i32_207 c1_i32_208
  let v276 : BitVec 32 := Scalar.addi c0_i32_209 v275
  v276.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_157 : BitVec 32 := 10#32
  let v205 : BitVec 1 := Scalar.cmpi .ne v2 c10_i32_157
  let v206 : BitVec 32 := Scalar.extui v205
  let c0_i32_158 : BitVec 32 := 0#32
  let v207 : BitVec 1 := Scalar.cmpi .ne v206 c0_i32_158
  v207

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev27 : Nat :=
  let c0_i32_209 : BitVec 32 := 0#32
  let c10_i32_207 : BitVec 32 := 10#32
  let c1_i32_208 : BitVec 32 := 1#32
  let v275 : BitVec 32 := Scalar.muli c10_i32_207 c1_i32_208
  let v276 : BitVec 32 := Scalar.addi c0_i32_209 v275
  v276.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_159 : BitVec 32 := 11#32
  let v208 : BitVec 1 := Scalar.cmpi .ne v2 c11_i32_159
  let v209 : BitVec 32 := Scalar.extui v208
  let c0_i32_160 : BitVec 32 := 0#32
  let v210 : BitVec 1 := Scalar.cmpi .ne v209 c0_i32_160
  v210

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev28 : Nat :=
  let c0_i32_209 : BitVec 32 := 0#32
  let c11_i32_207 : BitVec 32 := 11#32
  let c1_i32_208 : BitVec 32 := 1#32
  let v275 : BitVec 32 := Scalar.muli c11_i32_207 c1_i32_208
  let v276 : BitVec 32 := Scalar.addi c0_i32_209 v275
  v276.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_161 : BitVec 32 := 12#32
  let v211 : BitVec 1 := Scalar.cmpi .ne v2 c12_i32_161
  let v212 : BitVec 32 := Scalar.extui v211
  let c0_i32_162 : BitVec 32 := 0#32
  let v213 : BitVec 1 := Scalar.cmpi .ne v212 c0_i32_162
  v213

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev29 : Nat :=
  let c0_i32_209 : BitVec 32 := 0#32
  let c12_i32_207 : BitVec 32 := 12#32
  let c1_i32_208 : BitVec 32 := 1#32
  let v275 : BitVec 32 := Scalar.muli c12_i32_207 c1_i32_208
  let v276 : BitVec 32 := Scalar.addi c0_i32_209 v275
  v276.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_163 : BitVec 32 := 13#32
  let v214 : BitVec 1 := Scalar.cmpi .ne v2 c13_i32_163
  let v215 : BitVec 32 := Scalar.extui v214
  let c0_i32_164 : BitVec 32 := 0#32
  let v216 : BitVec 1 := Scalar.cmpi .ne v215 c0_i32_164
  v216

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev30 : Nat :=
  let c0_i32_209 : BitVec 32 := 0#32
  let c13_i32_207 : BitVec 32 := 13#32
  let c1_i32_208 : BitVec 32 := 1#32
  let v275 : BitVec 32 := Scalar.muli c13_i32_207 c1_i32_208
  let v276 : BitVec 32 := Scalar.addi c0_i32_209 v275
  v276.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_165 : BitVec 32 := 14#32
  let v217 : BitVec 1 := Scalar.cmpi .ne v2 c14_i32_165
  let v218 : BitVec 32 := Scalar.extui v217
  let c0_i32_166 : BitVec 32 := 0#32
  let v219 : BitVec 1 := Scalar.cmpi .ne v218 c0_i32_166
  v219

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev31 : Nat :=
  let c0_i32_209 : BitVec 32 := 0#32
  let c14_i32_207 : BitVec 32 := 14#32
  let c1_i32_208 : BitVec 32 := 1#32
  let v275 : BitVec 32 := Scalar.muli c14_i32_207 c1_i32_208
  let v276 : BitVec 32 := Scalar.addi c0_i32_209 v275
  v276.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_167 : BitVec 32 := 15#32
  let v220 : BitVec 1 := Scalar.cmpi .ne v2 c15_i32_167
  let v221 : BitVec 32 := Scalar.extui v220
  let c0_i32_168 : BitVec 32 := 0#32
  let v222 : BitVec 1 := Scalar.cmpi .ne v221 c0_i32_168
  v222

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_210 : BitVec 32 := 0#32
  ![v2.toNat, 0]
def k0_dev32 : Nat :=
  let c0_i32_209 : BitVec 32 := 0#32
  let c15_i32_207 : BitVec 32 := 15#32
  let c1_i32_208 : BitVec 32 := 1#32
  let v275 : BitVec 32 := Scalar.muli c15_i32_207 c1_i32_208
  let v276 : BitVec 32 := Scalar.addi c0_i32_209 v275
  v276.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_169 : BitVec 32 := 0#32
  let v223 : BitVec 1 := Scalar.cmpi .ne v2 c0_i32_169
  let v224 : BitVec 32 := Scalar.extui v223
  let c0_i32_170 : BitVec 32 := 0#32
  let v225 : BitVec 1 := Scalar.cmpi .ne v224 c0_i32_170
  v225

def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_171 : BitVec 32 := 1#32
  let v226 : BitVec 1 := Scalar.cmpi .ne v2 c1_i32_171
  let v227 : BitVec 32 := Scalar.extui v226
  let c0_i32_172 : BitVec 32 := 0#32
  let v228 : BitVec 1 := Scalar.cmpi .ne v227 c0_i32_172
  v228

def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_173 : BitVec 32 := 2#32
  let v229 : BitVec 1 := Scalar.cmpi .ne v2 c2_i32_173
  let v230 : BitVec 32 := Scalar.extui v229
  let c0_i32_174 : BitVec 32 := 0#32
  let v231 : BitVec 1 := Scalar.cmpi .ne v230 c0_i32_174
  v231

def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_175 : BitVec 32 := 3#32
  let v232 : BitVec 1 := Scalar.cmpi .ne v2 c3_i32_175
  let v233 : BitVec 32 := Scalar.extui v232
  let c0_i32_176 : BitVec 32 := 0#32
  let v234 : BitVec 1 := Scalar.cmpi .ne v233 c0_i32_176
  v234

def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_177 : BitVec 32 := 4#32
  let v235 : BitVec 1 := Scalar.cmpi .ne v2 c4_i32_177
  let v236 : BitVec 32 := Scalar.extui v235
  let c0_i32_178 : BitVec 32 := 0#32
  let v237 : BitVec 1 := Scalar.cmpi .ne v236 c0_i32_178
  v237

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_179 : BitVec 32 := 5#32
  let v238 : BitVec 1 := Scalar.cmpi .ne v2 c5_i32_179
  let v239 : BitVec 32 := Scalar.extui v238
  let c0_i32_180 : BitVec 32 := 0#32
  let v240 : BitVec 1 := Scalar.cmpi .ne v239 c0_i32_180
  v240

def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_181 : BitVec 32 := 6#32
  let v241 : BitVec 1 := Scalar.cmpi .ne v2 c6_i32_181
  let v242 : BitVec 32 := Scalar.extui v241
  let c0_i32_182 : BitVec 32 := 0#32
  let v243 : BitVec 1 := Scalar.cmpi .ne v242 c0_i32_182
  v243

def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_183 : BitVec 32 := 7#32
  let v244 : BitVec 1 := Scalar.cmpi .ne v2 c7_i32_183
  let v245 : BitVec 32 := Scalar.extui v244
  let c0_i32_184 : BitVec 32 := 0#32
  let v246 : BitVec 1 := Scalar.cmpi .ne v245 c0_i32_184
  v246

def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_185 : BitVec 32 := 8#32
  let v247 : BitVec 1 := Scalar.cmpi .ne v2 c8_i32_185
  let v248 : BitVec 32 := Scalar.extui v247
  let c0_i32_186 : BitVec 32 := 0#32
  let v249 : BitVec 1 := Scalar.cmpi .ne v248 c0_i32_186
  v249

def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_187 : BitVec 32 := 9#32
  let v250 : BitVec 1 := Scalar.cmpi .ne v2 c9_i32_187
  let v251 : BitVec 32 := Scalar.extui v250
  let c0_i32_188 : BitVec 32 := 0#32
  let v252 : BitVec 1 := Scalar.cmpi .ne v251 c0_i32_188
  v252

def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_189 : BitVec 32 := 10#32
  let v253 : BitVec 1 := Scalar.cmpi .ne v2 c10_i32_189
  let v254 : BitVec 32 := Scalar.extui v253
  let c0_i32_190 : BitVec 32 := 0#32
  let v255 : BitVec 1 := Scalar.cmpi .ne v254 c0_i32_190
  v255

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_191 : BitVec 32 := 11#32
  let v256 : BitVec 1 := Scalar.cmpi .ne v2 c11_i32_191
  let v257 : BitVec 32 := Scalar.extui v256
  let c0_i32_192 : BitVec 32 := 0#32
  let v258 : BitVec 1 := Scalar.cmpi .ne v257 c0_i32_192
  v258

def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_193 : BitVec 32 := 12#32
  let v259 : BitVec 1 := Scalar.cmpi .ne v2 c12_i32_193
  let v260 : BitVec 32 := Scalar.extui v259
  let c0_i32_194 : BitVec 32 := 0#32
  let v261 : BitVec 1 := Scalar.cmpi .ne v260 c0_i32_194
  v261

def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_195 : BitVec 32 := 13#32
  let v262 : BitVec 1 := Scalar.cmpi .ne v2 c13_i32_195
  let v263 : BitVec 32 := Scalar.extui v262
  let c0_i32_196 : BitVec 32 := 0#32
  let v264 : BitVec 1 := Scalar.cmpi .ne v263 c0_i32_196
  v264

def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_197 : BitVec 32 := 14#32
  let v265 : BitVec 1 := Scalar.cmpi .ne v2 c14_i32_197
  let v266 : BitVec 32 := Scalar.extui v265
  let c0_i32_198 : BitVec 32 := 0#32
  let v267 : BitVec 1 := Scalar.cmpi .ne v266 c0_i32_198
  v267

def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_199 : BitVec 32 := 15#32
  let v268 : BitVec 1 := Scalar.cmpi .ne v2 c15_i32_199
  let v269 : BitVec 32 := Scalar.extui v268
  let c0_i32_200 : BitVec 32 := 0#32
  let v270 : BitVec 1 := Scalar.cmpi .ne v269 c0_i32_200
  v270

def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_219 : BitVec 32 := 0#32
  ![v2.toNat, 0]
abbrev stage0_0 : Fin 1 → Memref sig .tc .vmem S1x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S2_S1_0 : ∀ a, (![0] : Fin 1 → Nat) a + S1.size a ≤ S2.size a
  squeezes_S1_S_ : S1.Squeezes S_
  inb_S2x192x768_S1x192x768_0_0_0 : ∀ a, (![0, 0, 0] : Fin 3 → Nat) a + S1x192x768.size a ≤ S2x192x768.size a
  squeezes_S1x192x768_S192x768 : S1x192x768.Squeezes S192x768
  inb_S1536x768_S192x768_0_0 : ∀ a, (![0, 0] : Fin 2 → Nat) a + S192x768.size a ≤ S1536x768.size a
  hamt_1 : (1#32 : BitVec 32).msb = false
  inb_S2_S1_1 : ∀ a, (![1] : Fin 1 → Nat) a + S1.size a ≤ S2.size a
  inb_S2x192x768_S1x192x768_1_0_0 : ∀ a, (![1, 0, 0] : Fin 3 → Nat) a + S1x192x768.size a ≤ S2x192x768.size a
  inb_S1536x768_S192x768_192_0 : ∀ a, (![192, 0] : Fin 2 → Nat) a + S192x768.size a ≤ S1536x768.size a
  h_S1x192x768 : 0 < S1x192x768.numel
  shapeCasts_S1x192x768_S192x768 : S1x192x768.ShapeCasts S192x768
  reduces_S192x768_S768 : S192x768.Reduces [0] S768
  shapeCasts_S768_S1x768 : S768.ShapeCasts S1x768
  inb_S1536x768_S192x768_384_0 : ∀ a, (![384, 0] : Fin 2 → Nat) a + S192x768.size a ≤ S1536x768.size a
  inb_S1536x768_S192x768_576_0 : ∀ a, (![576, 0] : Fin 2 → Nat) a + S192x768.size a ≤ S1536x768.size a
  inb_S1536x768_S192x768_768_0 : ∀ a, (![768, 0] : Fin 2 → Nat) a + S192x768.size a ≤ S1536x768.size a
  inb_S1536x768_S192x768_960_0 : ∀ a, (![960, 0] : Fin 2 → Nat) a + S192x768.size a ≤ S1536x768.size a
  inb_S1536x768_S192x768_1152_0 : ∀ a, (![1152, 0] : Fin 2 → Nat) a + S192x768.size a ≤ S1536x768.size a
  inb_S1536x768_S192x768_1344_0 : ∀ a, (![1344, 0] : Fin 2 → Nat) a + S192x768.size a ≤ S1536x768.size a
  h_S1x768 : 0 < S1x768.numel
  shapeCasts_S1x768_S1x768 : S1x768.ShapeCasts S1x768
  hamt_15 : (15#32 : BitVec 32).msb = false
  inb_S16_S1_0 : ∀ a, (![0] : Fin 1 → Nat) a + S1.size a ≤ S16.size a
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  inb_S16x768_S1x768_0_0 : ∀ a, (![0, 0] : Fin 2 → Nat) a + S1x768.size a ≤ S16x768.size a
  inb_S16x768_S1x768_1_0 : ∀ a, (![1, 0] : Fin 2 → Nat) a + S1x768.size a ≤ S16x768.size a
  inb_S16x768_S1x768_2_0 : ∀ a, (![2, 0] : Fin 2 → Nat) a + S1x768.size a ≤ S16x768.size a
  inb_S16x768_S1x768_3_0 : ∀ a, (![3, 0] : Fin 2 → Nat) a + S1x768.size a ≤ S16x768.size a
  inb_S16x768_S1x768_4_0 : ∀ a, (![4, 0] : Fin 2 → Nat) a + S1x768.size a ≤ S16x768.size a
  inb_S16x768_S1x768_5_0 : ∀ a, (![5, 0] : Fin 2 → Nat) a + S1x768.size a ≤ S16x768.size a
  inb_S16x768_S1x768_6_0 : ∀ a, (![6, 0] : Fin 2 → Nat) a + S1x768.size a ≤ S16x768.size a
  inb_S16x768_S1x768_7_0 : ∀ a, (![7, 0] : Fin 2 → Nat) a + S1x768.size a ≤ S16x768.size a
  inb_S16x768_S1x768_8_0 : ∀ a, (![8, 0] : Fin 2 → Nat) a + S1x768.size a ≤ S16x768.size a
  inb_S16x768_S1x768_9_0 : ∀ a, (![9, 0] : Fin 2 → Nat) a + S1x768.size a ≤ S16x768.size a
  inb_S16x768_S1x768_10_0 : ∀ a, (![10, 0] : Fin 2 → Nat) a + S1x768.size a ≤ S16x768.size a
  inb_S16x768_S1x768_11_0 : ∀ a, (![11, 0] : Fin 2 → Nat) a + S1x768.size a ≤ S16x768.size a
  inb_S16x768_S1x768_12_0 : ∀ a, (![12, 0] : Fin 2 → Nat) a + S1x768.size a ≤ S16x768.size a
  inb_S16x768_S1x768_13_0 : ∀ a, (![13, 0] : Fin 2 → Nat) a + S1x768.size a ≤ S16x768.size a
  inb_S16x768_S1x768_14_0 : ∀ a, (![14, 0] : Fin 2 → Nat) a + S1x768.size a ≤ S16x768.size a
  inb_S16x768_S1x768_15_0 : ∀ a, (![15, 0] : Fin 2 → Nat) a + S1x768.size a ≤ S16x768.size a
  inb_S16x768_S16x768_0_0 : ∀ a, (![0, 0] : Fin 2 → Nat) a + S16x768.size a ≤ S16x768.size a
  h_S16x768 : 0 < S16x768.numel
  reduces_S16x768_S768 : S16x768.Reduces [0] S768
  inb_S1x768_S1x768_0_0 : ∀ a, (![0, 0] : Fin 2 → Nat) a + S1x768.size a ≤ S1x768.size a
  hcc0_scratch1 : 1 + S2.numel ≤ 35
  hcc0_scratch3 : 3 + S16.numel ≤ 35
  hcc0_scratch4 : 19 + S16.numel ≤ 35
  k0_dev1_lt : ∀ d0 : Dev nD, ∀ (k0_h1 : k0_cond1 d0 = 1#1), k0_dev1 < nD
  k0_dev2_lt : ∀ d0 : Dev nD, ∀ (k0_h2 : k0_cond2 d0 = 1#1), k0_dev2 < nD
  k0_dev3_lt : ∀ d0 : Dev nD, ∀ (k0_h3 : k0_cond3 d0 = 1#1), k0_dev3 < nD
  k0_dev4_lt : ∀ d0 : Dev nD, ∀ (k0_h4 : k0_cond4 d0 = 1#1), k0_dev4 < nD
  k0_dev5_lt : ∀ d0 : Dev nD, ∀ (k0_h5 : k0_cond5 d0 = 1#1), k0_dev5 < nD
  k0_dev6_lt : ∀ d0 : Dev nD, ∀ (k0_h6 : k0_cond6 d0 = 1#1), k0_dev6 < nD
  k0_dev7_lt : ∀ d0 : Dev nD, ∀ (k0_h7 : k0_cond7 d0 = 1#1), k0_dev7 < nD
  k0_dev8_lt : ∀ d0 : Dev nD, ∀ (k0_h8 : k0_cond8 d0 = 1#1), k0_dev8 < nD
  k0_dev9_lt : ∀ d0 : Dev nD, ∀ (k0_h9 : k0_cond9 d0 = 1#1), k0_dev9 < nD
  k0_dev10_lt : ∀ d0 : Dev nD, ∀ (k0_h10 : k0_cond10 d0 = 1#1), k0_dev10 < nD
  k0_dev11_lt : ∀ d0 : Dev nD, ∀ (k0_h11 : k0_cond11 d0 = 1#1), k0_dev11 < nD
  k0_dev12_lt : ∀ d0 : Dev nD, ∀ (k0_h12 : k0_cond12 d0 = 1#1), k0_dev12 < nD
  k0_dev13_lt : ∀ d0 : Dev nD, ∀ (k0_h13 : k0_cond13 d0 = 1#1), k0_dev13 < nD
  k0_dev14_lt : ∀ d0 : Dev nD, ∀ (k0_h14 : k0_cond14 d0 = 1#1), k0_dev14 < nD
  k0_dev15_lt : ∀ d0 : Dev nD, ∀ (k0_h15 : k0_cond15 d0 = 1#1), k0_dev15 < nD
  k0_dev16_lt : ∀ d0 : Dev nD, ∀ (k0_h16 : k0_cond16 d0 = 1#1), k0_dev16 < nD
  k0_off1_inb : ∀ d0 : Dev nD, ∀ a, (k0_off1 d0) a + S1x768.size a ≤ S16x768.size a
  k0_off2_inb : ∀ d0 : Dev nD, ∀ (k0_h17 : k0_cond17 d0 = 1#1), ∀ a, (k0_off2 d0) a + S1.size a ≤ S16.size a
  k0_off3_inb : ∀ d0 : Dev nD, ∀ (k0_h17 : k0_cond17 d0 = 1#1), ∀ a, (k0_off3 d0) a + S1x768.size a ≤ S16x768.size a
  k0_dev17_lt : ∀ d0 : Dev nD, ∀ (k0_h17 : k0_cond17 d0 = 1#1), k0_dev17 < nD
  k0_off4_inb : ∀ d0 : Dev nD, ∀ (k0_h18 : k0_cond18 d0 = 1#1), ∀ a, (k0_off4 d0) a + S1.size a ≤ S16.size a
  k0_off5_inb : ∀ d0 : Dev nD, ∀ (k0_h18 : k0_cond18 d0 = 1#1), ∀ a, (k0_off5 d0) a + S1x768.size a ≤ S16x768.size a
  k0_dev18_lt : ∀ d0 : Dev nD, ∀ (k0_h18 : k0_cond18 d0 = 1#1), k0_dev18 < nD
  k0_off6_inb : ∀ d0 : Dev nD, ∀ (k0_h19 : k0_cond19 d0 = 1#1), ∀ a, (k0_off6 d0) a + S1.size a ≤ S16.size a
  k0_off7_inb : ∀ d0 : Dev nD, ∀ (k0_h19 : k0_cond19 d0 = 1#1), ∀ a, (k0_off7 d0) a + S1x768.size a ≤ S16x768.size a
  k0_dev19_lt : ∀ d0 : Dev nD, ∀ (k0_h19 : k0_cond19 d0 = 1#1), k0_dev19 < nD
  k0_off8_inb : ∀ d0 : Dev nD, ∀ (k0_h20 : k0_cond20 d0 = 1#1), ∀ a, (k0_off8 d0) a + S1.size a ≤ S16.size a
  k0_off9_inb : ∀ d0 : Dev nD, ∀ (k0_h20 : k0_cond20 d0 = 1#1), ∀ a, (k0_off9 d0) a + S1x768.size a ≤ S16x768.size a
  k0_dev20_lt : ∀ d0 : Dev nD, ∀ (k0_h20 : k0_cond20 d0 = 1#1), k0_dev20 < nD
  k0_off10_inb : ∀ d0 : Dev nD, ∀ (k0_h21 : k0_cond21 d0 = 1#1), ∀ a, (k0_off10 d0) a + S1.size a ≤ S16.size a
  k0_off11_inb : ∀ d0 : Dev nD, ∀ (k0_h21 : k0_cond21 d0 = 1#1), ∀ a, (k0_off11 d0) a + S1x768.size a ≤ S16x768.size a
  k0_dev21_lt : ∀ d0 : Dev nD, ∀ (k0_h21 : k0_cond21 d0 = 1#1), k0_dev21 < nD
  k0_off12_inb : ∀ d0 : Dev nD, ∀ (k0_h22 : k0_cond22 d0 = 1#1), ∀ a, (k0_off12 d0) a + S1.size a ≤ S16.size a
  k0_off13_inb : ∀ d0 : Dev nD, ∀ (k0_h22 : k0_cond22 d0 = 1#1), ∀ a, (k0_off13 d0) a + S1x768.size a ≤ S16x768.size a
  k0_dev22_lt : ∀ d0 : Dev nD, ∀ (k0_h22 : k0_cond22 d0 = 1#1), k0_dev22 < nD
  k0_off14_inb : ∀ d0 : Dev nD, ∀ (k0_h23 : k0_cond23 d0 = 1#1), ∀ a, (k0_off14 d0) a + S1.size a ≤ S16.size a
  k0_off15_inb : ∀ d0 : Dev nD, ∀ (k0_h23 : k0_cond23 d0 = 1#1), ∀ a, (k0_off15 d0) a + S1x768.size a ≤ S16x768.size a
  k0_dev23_lt : ∀ d0 : Dev nD, ∀ (k0_h23 : k0_cond23 d0 = 1#1), k0_dev23 < nD
  k0_off16_inb : ∀ d0 : Dev nD, ∀ (k0_h24 : k0_cond24 d0 = 1#1), ∀ a, (k0_off16 d0) a + S1.size a ≤ S16.size a
  k0_off17_inb : ∀ d0 : Dev nD, ∀ (k0_h24 : k0_cond24 d0 = 1#1), ∀ a, (k0_off17 d0) a + S1x768.size a ≤ S16x768.size a
  k0_dev24_lt : ∀ d0 : Dev nD, ∀ (k0_h24 : k0_cond24 d0 = 1#1), k0_dev24 < nD
  k0_off18_inb : ∀ d0 : Dev nD, ∀ (k0_h25 : k0_cond25 d0 = 1#1), ∀ a, (k0_off18 d0) a + S1.size a ≤ S16.size a
  k0_off19_inb : ∀ d0 : Dev nD, ∀ (k0_h25 : k0_cond25 d0 = 1#1), ∀ a, (k0_off19 d0) a + S1x768.size a ≤ S16x768.size a
  k0_dev25_lt : ∀ d0 : Dev nD, ∀ (k0_h25 : k0_cond25 d0 = 1#1), k0_dev25 < nD
  k0_off20_inb : ∀ d0 : Dev nD, ∀ (k0_h26 : k0_cond26 d0 = 1#1), ∀ a, (k0_off20 d0) a + S1.size a ≤ S16.size a
  k0_off21_inb : ∀ d0 : Dev nD, ∀ (k0_h26 : k0_cond26 d0 = 1#1), ∀ a, (k0_off21 d0) a + S1x768.size a ≤ S16x768.size a
  k0_dev26_lt : ∀ d0 : Dev nD, ∀ (k0_h26 : k0_cond26 d0 = 1#1), k0_dev26 < nD
  k0_off22_inb : ∀ d0 : Dev nD, ∀ (k0_h27 : k0_cond27 d0 = 1#1), ∀ a, (k0_off22 d0) a + S1.size a ≤ S16.size a
  k0_off23_inb : ∀ d0 : Dev nD, ∀ (k0_h27 : k0_cond27 d0 = 1#1), ∀ a, (k0_off23 d0) a + S1x768.size a ≤ S16x768.size a
  k0_dev27_lt : ∀ d0 : Dev nD, ∀ (k0_h27 : k0_cond27 d0 = 1#1), k0_dev27 < nD
  k0_off24_inb : ∀ d0 : Dev nD, ∀ (k0_h28 : k0_cond28 d0 = 1#1), ∀ a, (k0_off24 d0) a + S1.size a ≤ S16.size a
  k0_off25_inb : ∀ d0 : Dev nD, ∀ (k0_h28 : k0_cond28 d0 = 1#1), ∀ a, (k0_off25 d0) a + S1x768.size a ≤ S16x768.size a
  k0_dev28_lt : ∀ d0 : Dev nD, ∀ (k0_h28 : k0_cond28 d0 = 1#1), k0_dev28 < nD
  k0_off26_inb : ∀ d0 : Dev nD, ∀ (k0_h29 : k0_cond29 d0 = 1#1), ∀ a, (k0_off26 d0) a + S1.size a ≤ S16.size a
  k0_off27_inb : ∀ d0 : Dev nD, ∀ (k0_h29 : k0_cond29 d0 = 1#1), ∀ a, (k0_off27 d0) a + S1x768.size a ≤ S16x768.size a
  k0_dev29_lt : ∀ d0 : Dev nD, ∀ (k0_h29 : k0_cond29 d0 = 1#1), k0_dev29 < nD
  k0_off28_inb : ∀ d0 : Dev nD, ∀ (k0_h30 : k0_cond30 d0 = 1#1), ∀ a, (k0_off28 d0) a + S1.size a ≤ S16.size a
  k0_off29_inb : ∀ d0 : Dev nD, ∀ (k0_h30 : k0_cond30 d0 = 1#1), ∀ a, (k0_off29 d0) a + S1x768.size a ≤ S16x768.size a
  k0_dev30_lt : ∀ d0 : Dev nD, ∀ (k0_h30 : k0_cond30 d0 = 1#1), k0_dev30 < nD
  k0_off30_inb : ∀ d0 : Dev nD, ∀ (k0_h31 : k0_cond31 d0 = 1#1), ∀ a, (k0_off30 d0) a + S1.size a ≤ S16.size a
  k0_off31_inb : ∀ d0 : Dev nD, ∀ (k0_h31 : k0_cond31 d0 = 1#1), ∀ a, (k0_off31 d0) a + S1x768.size a ≤ S16x768.size a
  k0_dev31_lt : ∀ d0 : Dev nD, ∀ (k0_h31 : k0_cond31 d0 = 1#1), k0_dev31 < nD
  k0_off32_inb : ∀ d0 : Dev nD, ∀ (k0_h32 : k0_cond32 d0 = 1#1), ∀ a, (k0_off32 d0) a + S1.size a ≤ S16.size a
  k0_off33_inb : ∀ d0 : Dev nD, ∀ (k0_h32 : k0_cond32 d0 = 1#1), ∀ a, (k0_off33 d0) a + S1x768.size a ≤ S16x768.size a
  k0_dev32_lt : ∀ d0 : Dev nD, ∀ (k0_h32 : k0_cond32 d0 = 1#1), k0_dev32 < nD
  k0_off34_inb : ∀ d0 : Dev nD, ∀ (k0_h33 : k0_cond33 d0 = 1#1), ∀ a, (k0_off34 d0) a + S1x768.size a ≤ S16x768.size a
  k0_off35_inb : ∀ d0 : Dev nD, ∀ (k0_h34 : k0_cond34 d0 = 1#1), ∀ a, (k0_off35 d0) a + S1x768.size a ≤ S16x768.size a
  k0_off36_inb : ∀ d0 : Dev nD, ∀ (k0_h35 : k0_cond35 d0 = 1#1), ∀ a, (k0_off36 d0) a + S1x768.size a ≤ S16x768.size a
  k0_off37_inb : ∀ d0 : Dev nD, ∀ (k0_h36 : k0_cond36 d0 = 1#1), ∀ a, (k0_off37 d0) a + S1x768.size a ≤ S16x768.size a
  k0_off38_inb : ∀ d0 : Dev nD, ∀ (k0_h37 : k0_cond37 d0 = 1#1), ∀ a, (k0_off38 d0) a + S1x768.size a ≤ S16x768.size a
  k0_off39_inb : ∀ d0 : Dev nD, ∀ (k0_h38 : k0_cond38 d0 = 1#1), ∀ a, (k0_off39 d0) a + S1x768.size a ≤ S16x768.size a
  k0_off40_inb : ∀ d0 : Dev nD, ∀ (k0_h39 : k0_cond39 d0 = 1#1), ∀ a, (k0_off40 d0) a + S1x768.size a ≤ S16x768.size a
  k0_off41_inb : ∀ d0 : Dev nD, ∀ (k0_h40 : k0_cond40 d0 = 1#1), ∀ a, (k0_off41 d0) a + S1x768.size a ≤ S16x768.size a
  k0_off42_inb : ∀ d0 : Dev nD, ∀ (k0_h41 : k0_cond41 d0 = 1#1), ∀ a, (k0_off42 d0) a + S1x768.size a ≤ S16x768.size a
  k0_off43_inb : ∀ d0 : Dev nD, ∀ (k0_h42 : k0_cond42 d0 = 1#1), ∀ a, (k0_off43 d0) a + S1x768.size a ≤ S16x768.size a
  k0_off44_inb : ∀ d0 : Dev nD, ∀ (k0_h43 : k0_cond43 d0 = 1#1), ∀ a, (k0_off44 d0) a + S1x768.size a ≤ S16x768.size a
  k0_off45_inb : ∀ d0 : Dev nD, ∀ (k0_h44 : k0_cond44 d0 = 1#1), ∀ a, (k0_off45 d0) a + S1x768.size a ≤ S16x768.size a
  k0_off46_inb : ∀ d0 : Dev nD, ∀ (k0_h45 : k0_cond45 d0 = 1#1), ∀ a, (k0_off46 d0) a + S1x768.size a ≤ S16x768.size a
  k0_off47_inb : ∀ d0 : Dev nD, ∀ (k0_h46 : k0_cond46 d0 = 1#1), ∀ a, (k0_off47 d0) a + S1x768.size a ≤ S16x768.size a
  k0_off48_inb : ∀ d0 : Dev nD, ∀ (k0_h47 : k0_cond47 d0 = 1#1), ∀ a, (k0_off48 d0) a + S1x768.size a ≤ S16x768.size a
  k0_off49_inb : ∀ d0 : Dev nD, ∀ (k0_h48 : k0_cond48 d0 = 1#1), ∀ a, (k0_off49 d0) a + S1x768.size a ≤ S16x768.size a
  hstage0_0 : ∀ j, (stage0_0 j).IsWhole

variable [Facts₀]

abbrev cc0_scratch1 : DmaSems sig S2 := SemArray.consecutive 1 S2 hcc0_scratch1
abbrev cc0_scratch3 : DmaSems sig S16 := SemArray.consecutive 3 S16 hcc0_scratch3
abbrev cc0_scratch4 : DmaSems sig S16 := SemArray.consecutive 19 S16 hcc0_scratch4

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S24576x768 : Shape := ⟨2, ![24576, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S24576x768, .f32⟩
  | .hbm, ⟨1, _⟩ => ⟨S_, .f32⟩
  | .hbm, ⟨2, _⟩ => ⟨S768, .f32⟩
  | .hbm, ⟨3, _⟩ => ⟨S1x768, .f32⟩
  | _, _ => ⟨S24576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S24576x768_S768_d0 : S24576x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.KernelIdeal.Proto.lean ====
import proofs.«901075_g7700000000001076_dist_sum_ax0_shard0_i_m1536_n768_v7x_i16_bf16_1_alg».proof.Proof.Gen.KernelIdeal
import proofs.«901075_g7700000000001076_dist_sum_ax0_shard0_i_m1536_n768_v7x_i16_bf16_1_alg».proof.Proof.Gen.KernelIdeal.Skeleton
import proofs.«901075_g7700000000001076_dist_sum_ax0_shard0_i_m1536_n768_v7x_i16_bf16_1_alg».proof.Proof.Gen.KernelIdeal.Launch
import proofs.«901075_g7700000000001076_dist_sum_ax0_shard0_i_m1536_n768_v7x_i16_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- Two copies of the rounds algebra side by side: the launch's own, and the protocol's with duties named by a device.
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

-- Per device: one barrier, two chunk-copy semaphores, sixteen send and sixteen receive semaphores.
abbrev barS : Sem sig := (SemArray.scalar (sig.barrier 0 rfl) : Sems sig S_).sem
def cpSem (s : Fin 2) : DmaSem sig := ⟨1 + s.val, by have := s.isLt; show 1 + s.val < 35; omega⟩
def sendSem (t : Dev nD) : DmaSem sig := ⟨3 + t.val, by have : t.val < 16 := t.isLt; show 3 + t.val < 35; omega⟩
def recvSem (j : Dev nD) : DmaSem sig := ⟨19 + j.val, by have : j.val < 16 := j.isLt; show 19 + j.val < 35; omega⟩

abbrev barCell (c : Dev nD) : GSem nD τ sig := ((c : Thread nD τ), .reg barS)
abbrev cpCell (c : Dev nD) (s : Fin 2) : GSem nD τ sig := ((c : Thread nD τ), .dma (cpSem s))
abbrev sendCell (c t : Dev nD) : GSem nD τ sig := ((c : Thread nD τ), .dma (sendSem t))
abbrev recvCell (c j : Dev nD) : GSem nD τ sig := ((c : Thread nD τ), .dma (recvSem j))

abbrev xM : Memref sig .tc .hbm S1536x768 .f32 := Memref.whole main_arg0
abbrev outM : Memref sig .tc .vmem S1x768 .f32 := Memref.whole cc0_stg0_0
abbrev bufM : Memref sig .tc .vmem S2x192x768 .f32 := Memref.whole cc0_scratch0
abbrev commM : Memref sig .tc .vmem S16x768 .f32 := Memref.whole cc0_scratch2

theorem rowRect_inb (j : Dev nD) : ∀ a, (![j.val, 0] : Fin 2 → Nat) a + S1x768.size a ≤ S16x768.size a := by revert j; decide
abbrev rowRect (j : Dev nD) : Rect S16x768 := Rect.unit (s := S16x768) ![j.val, 0] S1x768.size (rowRect_inb j)

-- Row `j` of the gathered table.
abbrev rowM (j : Dev nD) : Memref sig .tc .vmem S1x768 .f32 := commM.slice (rowRect j) (fun _ => rfl)

theorem slotRect_inb (s : Fin 2) : ∀ a, (![s.val, 0, 0] : Fin 3 → Nat) a + S1x192x768.size a ≤ S2x192x768.size a := by revert s; decide
abbrev slotRect (s : Fin 2) : Rect S2x192x768 := Rect.unit (s := S2x192x768) ![s.val, 0, 0] S1x192x768.size (slotRect_inb s)

-- Slot `s` of the two-slot scratch the chunks of `x` are copied into.
abbrev slotM (s : Fin 2) : Memref sig .tc .vmem S192x768 .f32 :=
  (bufM.slice (slotRect s) (fun _ => rfl)).squeeze S192x768 squeezes_S1x192x768_S192x768

theorem chunkRect_inb (k : Fin 8) : ∀ a, (![192 * k.val, 0] : Fin 2 → Nat) a + S192x768.size a ≤ S1536x768.size a := by revert k; decide
abbrev chunkRect (k : Fin 8) : Rect S1536x768 := Rect.unit (s := S1536x768) ![192 * k.val, 0] S192x768.size (chunkRect_inb k)

-- Rows `[192 k, 192 k + 192)` of the device's block of `x`.
abbrev chunkM (k : Fin 8) : Memref sig .tc .hbm S192x768 .f32 := xM.slice (chunkRect k) (fun _ => rfl)

abbrev Nrow : ℕ := (rowM 0).view.dmaCredit
abbrev Ncp : ℕ := (slotM 0).view.dmaCredit

variable (m : (ℓ : Loc nD τ sig) → Buf (Elt F) ℓ) (ρ : Dev nD → PrngReg)

def xc (c : Dev nD) : (main_arg0 : Ref sig .tc).ty.Contents (Elt F) := m ((c : Thread nD τ).loc main_arg0)

def chunkR (c : Dev nD) (k : Fin 8) : Vec F S192x768 .f32 := (chunkM k).view.read (Elt F) (xc m c)

def ld (X : Vec F S192x768 .f32) : Vec F S1x192x768 .f32 := shapeCast S1x192x768 X (by decide)

-- A device's contribution: the column sums of its eight chunks, added in the body's order.
def accV (c : Dev nD) : FVec F S1x768 .f32 :=
  k0_pay6 (k0_pay5 (k0_pay4 (k0_pay3 (k0_pay2 (ld (chunkR m c 0)) (ld (chunkR m c 1))) (ld (chunkR m c 2)))
    (ld (chunkR m c 3)) (ld (chunkR m c 4))) (ld (chunkR m c 5)) (ld (chunkR m c 6))) (ld (chunkR m c 7))

-- The gathered table: row `j` is device `j`'s contribution, the same on every device.
def commV : Vec F S16x768 .f32 := fun i => accV m (show Fin 16 from i 0) (ValueIdx.ix2 (0 : Fin 1) (show Fin 768 from i 1))

def commBuf (c : Dev nD) : Buf (Elt F) ((c : Thread nD τ).loc cc0_scratch2) := commV m

-- The result on every device: the table's column sums.
def outV : Vec F S1x768 .f32 := k0_pay1 (commV m)

inductive CK where
  | bar | cp (s : Fin 2) | send (t : Dev nD) | recv (j : Dev nD) | other
  deriving DecidableEq

def kindOf : SemLoc sig → CK
  | .reg _ => .bar
  | .dma q =>
    if h0 : q.val = 0 then .other
    else if h1 : q.val < 3 then .cp ⟨q.val - 1, by omega⟩
    else if h2 : q.val < 19 then .send ⟨q.val - 3, by show q.val - 3 < 16; omega⟩
    else .recv ⟨q.val - 19, by have : q.val < 35 := q.isLt; show q.val - 19 < 16; omega⟩

def chunkIx (s : Fin 2) (r : ℕ) : Fin 8 := ⟨(2 * r + s.val) % 8, Nat.mod_lt _ (by decide)⟩

abbrev rowShare (t : Dev nD) : PosShare TreeShare := Transfers.shareTok fullShare 16 t

def barPay (c d : Dev nD) : sProp 𝕄 := iprop((∃ X, owns (d : Thread nD τ) (rowM c) fullShare X) ∗ reached ER (recvCell d c) 0)

def sendPay (c t : Dev nD) : sProp 𝕄 := ((c : Thread nD τ).loc cc0_scratch2) ↦[(rowM c).view.set]{rowShare t} commBuf m c

def recvPay (c j : Dev nD) : sProp 𝕄 := ((c : Thread nD τ).loc cc0_scratch2) ↦[(rowM j).view.set]{fullShare} commBuf m c

def cpPay (c : Dev nD) (s : Fin 2) (r : ℕ) : sProp 𝕄 :=
  iprop(owns (c : Thread nD τ) (slotM s) fullShare (chunkR m c (chunkIx s r))
    ∗ (((c : Thread nD τ).loc main_arg0) ↦[(chunkM (chunkIx s r)).view.set]{fullShare} xc m c))

theorem Nrow_pos : 0 < Nrow := View.dmaCredit_pos _ (by decide)
theorem Ncp_pos : 0 < Ncp := View.dmaCredit_pos _ (by decide)

-- One round for each barrier, send and receive cell; four rounds, a chunk each, for each of the two copy cells.
def Rd : Rounds.Schedule (GSem nD τ sig) (Dev nD) 𝕄 where
  duties g r :=
    if g.1.2 = .tc then
      match kindOf g.2 with
      | .bar => if r = 0 then Finset.univ.erase g.1.1 else ∅
      | .cp _ => if r < 4 then {0} else ∅
      | .send t => if r = 0 ∧ t ≠ g.1.1 then {0} else ∅
      | .recv j => if r = 0 ∧ j ≠ g.1.1 then {0} else ∅
      | .other => ∅
    else ∅
  unitless _ := False
  amount g _ _ := match kindOf g.2 with
    | .bar => 1 | .cp _ => Ncp | .send _ => Nrow | .recv _ => Nrow | .other => 1
  payload g r d := match kindOf g.2 with
    | .bar => barPay g.1.1 d
    | .cp s => cpPay m g.1.1 s r
    | .send t => sendPay m g.1.1 t
    | .recv j => recvPay m g.1.1 j
    | .other => iprop(emp)
  amount_pos g _ _ _ := by
    cases kindOf g.2 <;> first | exact Nat.one_pos | exact Ncp_pos | exact Nrow_pos

instance Rd_payload_storable (g : GSem nD τ sig) (r : ℕ) (d : Dev nD) :
    BI.Storable (upEmb : UEmb _ 𝕄) ((Rd (F := F) m).payload g r d) := by
  show BI.Storable upEmb (match kindOf g.2 with
    | .bar => barPay g.1.1 d
    | .cp s => cpPay m g.1.1 s r
    | .send t => sendPay m g.1.1 t
    | .recv j => recvPay m g.1.1 j
    | .other => iprop(emp))
  unfold barPay cpPay sendPay recvPay
  split <;> infer_instance

-- What a device still owes its peers numbered `k` and up: a signal each, and a row each.
def owedSig (c : Dev nD) (k : ℕ) : CellTallies nD τ sig Unit :=
  ∑ t ∈ (Finset.univ.erase c).filter (fun t : Dev nD => k ≤ t.val), tallyAt (barCell t) () 1

def owedSend (c : Dev nD) (k : ℕ) : CellTallies nD τ sig Unit :=
  ∑ t ∈ (Finset.univ.erase c).filter (fun t : Dev nD => k ≤ t.val), tallyAt (recvCell t c) () Nrow
def owedAt (c : Dev nD) (k₁ k₂ : ℕ) : CellTallies nD τ sig Unit := owedSend c k₂ + owedSig c k₁
def O₀ (c : Dev nD) : CellTallies nD τ sig Unit := owedAt c 0 0

def L (g : GSem nD τ sig) : Finset Unit := if g.1.2 = .tc then {()} else ∅

-- A device waits on its copy cells while it owes signals and rows, on its barrier while it owes rows, on receive and send cells owing nothing.
def lv (g : GSem nD τ sig) (_ : Unit) : ℕ := match kindOf g.2 with | .bar => 1 | .recv _ => 2 | _ => 0

def csem (k : Fin 35) : SemLoc sig := if k.val = 0 then .reg barS else .dma ⟨k.val, k.isLt⟩
abbrev kcell (ck : Dev nD × Fin 35) : GSem nD τ sig := ((ck.1 : Thread nD τ), csem ck.2)

def records (K : Dev nD × Fin 35 → ℕ) : sProp 𝕄 :=
  iprop((bigSep Finset.univ fun ck : Dev nD × Fin 35 => cellInv ER (Rd m) (K ck) (kcell ck))
    ∗ bigSep Finset.univ fun ck : Dev nD × Fin 35 => reached ER (kcell ck) 0)

instance records_persistent (K : Dev nD × Fin 35 → ℕ) : BI.Persistent (records m K) := by unfold records; infer_instance

def Gd (c t : Dev nD) (P : sProp 𝕄) : sProp 𝕄 := if t = c then iprop(emp) else P

def peersFrom (c : Dev nD) (k : ℕ) (Φ : Dev nD → sProp 𝕄) : sProp 𝕄 :=
  bigSep ((Finset.univ.erase c).filter (fun t : Dev nD => k ≤ t.val)) Φ
def peersUpto (c : Dev nD) (k : ℕ) (Φ : Dev nD → sProp 𝕄) : sProp 𝕄 :=
  bigSep ((Finset.univ.erase c).filter (fun t : Dev nD => t.val < k)) Φ

def rowAny (c j : Dev nD) : sProp 𝕄 := iprop(∃ X, owns (c : Thread nD τ) (rowM j) fullShare X)

def sigRes (c t : Dev nD) : sProp 𝕄 := iprop(dutyTok ER (barCell t) 0 c ∗ rowAny c t)

def sendRes (c t : Dev nD) : sProp 𝕄 :=
  iprop(dutyTok ER (sendCell c t) 0 0 ∗ dutyTok ER (recvCell t c) 0 0 ∗ rowAny t c ∗ sendPay m c t)

def sentRes (c t : Dev nD) : sProp 𝕄 := cred (tallyAt (sendCell c t) () Nrow)

def waitRes (c j : Dev nD) : sProp 𝕄 :=
  iprop(atPos ER (sendCell c j) 0 ∅ 0 ∗ atPos ER (recvCell c j) 0 ∅ 0 ∗ cred (tallyAt (recvCell c j) () Nrow))

def doneRes (c j : Dev nD) : sProp 𝕄 :=
  iprop(recvPay m c j ∗ sendPay m c j ∗ atPos ER (sendCell c j) 1 ∅ 0 ∗ atPos ER (recvCell c j) 1 ∅ 0)

abbrev xLoc (c : Dev nD) : Loc nD τ sig := (c : Thread nD τ).loc main_arg0
abbrev cpTok (c : Dev nD) (k : Fin 8) : sProp 𝕄 := dutyTok ER (cpCell c ⟨k.val % 2, Nat.mod_lt _ (by decide)⟩) (k.val / 2) 0
def slotAny (c : Dev nD) (s : Fin 2) : sProp 𝕄 := iprop(∃ X, owns (c : Thread nD τ) (slotM s) fullShare X)
def slotAt (c : Dev nD) (s : Fin 2) (k : Fin 8) : sProp 𝕄 := owns (c : Thread nD τ) (slotM s) fullShare (chunkR m c k)

def xBut (c : Dev nD) (k : Fin 8) : sProp 𝕄 := (xLoc c) ↦[Finset.univ \ (chunkM k).view.set]{fullShare} xc m c
def xAll (c : Dev nD) : sProp 𝕄 := (xLoc c) ↦{fullShare} xc m c

def Cp0 (c : Dev nD) : sProp 𝕄 :=
  iprop(xAll m c ∗ slotAny c 0 ∗ slotAny c 1 ∗ atPos ER (cpCell c 0) 0 ∅ 0 ∗ atPos ER (cpCell c 1) 0 ∅ 0
    ∗ bigSepL [0, 1, 2, 3, 4, 5, 6, 7] (cpTok c))

def Cp1 (c : Dev nD) : sProp 𝕄 :=
  iprop(xBut m c 0 ∗ slotAny c 1 ∗ atPos ER (cpCell c 0) 0 ∅ 0 ∗ atPos ER (cpCell c 1) 0 ∅ 0
    ∗ bigSepL [1, 2, 3, 4, 5, 6, 7] (cpTok c) ∗ cred (tallyAt (cpCell c 0) () Ncp))

def Cp3 (c : Dev nD) : sProp 𝕄 :=
  iprop(xBut m c 2 ∗ slotAny c 1 ∗ atPos ER (cpCell c 0) 1 ∅ 0 ∗ atPos ER (cpCell c 1) 1 ∅ 0
    ∗ bigSepL [3, 4, 5, 6, 7] (cpTok c) ∗ cred (tallyAt (cpCell c 0) () Ncp))

def Cp4 (c : Dev nD) : sProp 𝕄 :=
  iprop(xBut m c 4 ∗ slotAt m c 1 3 ∗ atPos ER (cpCell c 0) 2 ∅ 0 ∗ atPos ER (cpCell c 1) 2 ∅ 0
    ∗ bigSepL [5, 6, 7] (cpTok c) ∗ cred (tallyAt (cpCell c 0) () Ncp))

def Cp5 (c : Dev nD) : sProp 𝕄 :=
  iprop(xAll m c ∗ slotAny c 0 ∗ slotAt m c 1 5 ∗ atPos ER (cpCell c 0) 3 ∅ 0 ∗ atPos ER (cpCell c 1) 3 ∅ 0
    ∗ bigSepL [6, 7] (cpTok c))

def Cp6 (c : Dev nD) : sProp 𝕄 :=
  iprop(xAll m c ∗ slotAny c 0 ∗ slotAt m c 1 7 ∗ atPos ER (cpCell c 0) 4 ∅ 0 ∗ atPos ER (cpCell c 1) 4 ∅ 0)

def Cp7 (c : Dev nD) : sProp 𝕄 :=
  iprop(xAll m c ∗ slotAny c 0 ∗ slotAny c 1 ∗ atPos ER (cpCell c 0) 4 ∅ 0 ∗ atPos ER (cpCell c 1) 4 ∅ 0)

def acc2 (c : Dev nD) : FVec F S1x768 .f32 := k0_pay2 (ld (chunkR m c 0)) (ld (chunkR m c 1))
def acc3 (c : Dev nD) : FVec F S1x768 .f32 := k0_pay3 (acc2 m c) (ld (chunkR m c 2))
def acc5 (c : Dev nD) : FVec F S1x768 .f32 := k0_pay4 (acc3 m c) (ld (chunkR m c 3)) (ld (chunkR m c 4))
def acc7 (c : Dev nD) : FVec F S1x768 .f32 := k0_pay5 (acc5 m c) (ld (chunkR m c 5)) (ld (chunkR m c 6))
theorem accV_eq (c : Dev nD) : accV m c = k0_pay6 (acc7 m c) (ld (chunkR m c 7)) := rfl

def owesE (c : Dev nD) (O : CellTallies nD τ sig Unit) : sProp 𝕄 := iprop(∃ W, owes (c : Thread nD τ) O W)

def stgAny (c : Dev nD) : sProp 𝕄 := iprop(∃ X, owns (c : Thread nD τ) outM fullShare X)

def Tail (c : Dev nD) : sProp 𝕄 :=
  iprop(peersFrom c 0 (waitRes c) ∗ atPos ER (sendCell c c) 0 ∅ 0 ∗ atPos ER (recvCell c c) 0 ∅ 0 ∗ stgAny c)

def sendToks (c : Dev nD) : sProp 𝕄 :=
  peersFrom c 0 (fun t => iprop(dutyTok ER (sendCell c t) 0 0 ∗ dutyTok ER (recvCell t c) 0 0))

def barOwn (c : Dev nD) : sProp 𝕄 := iprop(atPos ER (barCell c) 0 ∅ 0 ∗ cred (tallyAt (barCell c) () 15))

-- The body's state while signalling (`SA`), sending (`SB`) and waiting (`SC`), `k` peers passed.
def SA (c : Dev nD) (k : ℕ) (Cp : sProp 𝕄) : sProp 𝕄 :=
  iprop(owesE c (owedAt c k 0) ∗ peersFrom c k (sigRes c) ∗ sendToks c ∗ barOwn c ∗ rowAny c c ∗ Cp ∗ Tail c)

def rowRem (c : Dev nD) : sProp 𝕄 :=
  iprop((((c : Thread nD τ).loc cc0_scratch2) ↦[(rowM c).view.set]{Transfers.shareDrop fullShare 16} commBuf m c) ∗ sendPay m c c)

def SB (c : Dev nD) (k : ℕ) : sProp 𝕄 :=
  iprop(owesE c (owedAt c 16 k) ∗ peersFrom c k (sendRes m c) ∗ peersUpto c k (sentRes c) ∗ atPos ER (barCell c) 1 ∅ 0
    ∗ rowRem m c ∗ Cp7 m c ∗ Tail c)

def SC (c : Dev nD) (k : ℕ) : sProp 𝕄 :=
  iprop(owesE c 0 ∗ peersFrom c k (sentRes c) ∗ peersFrom c k (waitRes c) ∗ peersUpto c k (doneRes m c) ∗ atPos ER (barCell c) 1 ∅ 0
    ∗ rowRem m c ∗ Cp7 m c ∗ atPos ER (sendCell c c) 0 ∅ 0 ∗ atPos ER (recvCell c c) 0 ∅ 0 ∗ stgAny c)

def osem (k : Fin 34) : SemLoc sig := .dma ⟨k.val + 1, by have : k.val < 34 := k.isLt; show k.val + 1 < 35; omega⟩

-- After the body: nothing owed, the result in place, every buffer whole again, every own cell closed.
def Done (c : Dev nD) : sProp 𝕄 :=
  iprop(owesE c 0 ∗ owns (c : Thread nD τ) outM fullShare (outV m) ∗ xAll m c
    ∗ (∃ f : Buf (Elt F) ((c : Thread nD τ).loc cc0_scratch0), ((c : Thread nD τ).loc cc0_scratch0) ↦{fullShare} f)
    ∗ (∃ f : Buf (Elt F) ((c : Thread nD τ).loc cc0_scratch2), ((c : Thread nD τ).loc cc0_scratch2) ↦{fullShare} f)
    ∗ bigSep Finset.univ (fun k : Fin 34 => semVal ((c : Thread nD τ), osem k) 0))

abbrev barSems : Sems sig S_ := SemArray.scalar (sig.barrier 0 rfl)

def Ctx (K : Dev nD × Fin 35 → ℕ) : sProp 𝕄 := iprop(records m K ∗ levAts L lv)

instance Ctx_persistent (K : Dev nD × Fin 35 → ℕ) : BI.Persistent (Ctx m K) := by unfold Ctx; infer_instance

section Parts
variable [Cert.KernelIdeal.Facts]

abbrev part1 : Prog (TpuEff nD τ sig (Elt F) Λ₀ .tc) (Σ' (d0 : Dev nD) (v2 : BitVec 32), Sems sig S_) :=
  k0_part1 (Memref.whole main_arg0) (Memref.isWhole_whole _) (Memref.whole cc0_stg0_0) (Memref.isWhole_whole _) (Memref.whole cc0_scratch0) (Memref.isWhole_whole _) cc0_scratch1 (Memref.whole cc0_scratch2) (Memref.isWhole_whole _) cc0_scratch3 cc0_scratch4
abbrev part2 (d0 : Dev nD) (v2 : BitVec 32) (v8 : Sems sig S_) : Prog (TpuEff nD τ sig (Elt F) Λ₀ .tc) PUnit :=
  k0_part2 (Memref.whole main_arg0) (Memref.isWhole_whole _) (Memref.whole cc0_stg0_0) (Memref.isWhole_whole _) (Memref.whole cc0_scratch0) (Memref.isWhole_whole _) cc0_scratch1 (Memref.whole cc0_scratch2) (Memref.isWhole_whole _) cc0_scratch3 cc0_scratch4 d0 v2 v8
abbrev part3 : Prog (TpuEff nD τ sig (Elt F) Λ₀ .tc) (FVec F S1x768 .f32) :=
  k0_part3 (Memref.whole main_arg0) (Memref.isWhole_whole _) (Memref.whole cc0_stg0_0) (Memref.isWhole_whole _) (Memref.whole cc0_scratch0) (Memref.isWhole_whole _) cc0_scratch1 (Memref.whole cc0_scratch2) (Memref.isWhole_whole _) cc0_scratch3 cc0_scratch4
abbrev part4 (v85 : FVec F S1x768 .f32) : Prog (TpuEff nD τ sig (Elt F) Λ₀ .tc) (FVec F S1x768 .f32) :=
  k0_part4 (Memref.whole main_arg0) (Memref.isWhole_whole _) (Memref.whole cc0_stg0_0) (Memref.isWhole_whole _) (Memref.whole cc0_scratch0) (Memref.isWhole_whole _) cc0_scratch1 (Memref.whole cc0_scratch2) (Memref.isWhole_whole _) cc0_scratch3 cc0_scratch4 v85
abbrev part5 (v100 : FVec F S1x768 .f32) : Prog (TpuEff nD τ sig (Elt F) Λ₀ .tc) (FVec F S1x768 .f32) :=
  k0_part5 (Memref.whole main_arg0) (Memref.isWhole_whole _) (Memref.whole cc0_stg0_0) (Memref.isWhole_whole _) (Memref.whole cc0_scratch0) (Memref.isWhole_whole _) cc0_scratch1 (Memref.whole cc0_scratch2) (Memref.isWhole_whole _) cc0_scratch3 cc0_scratch4 v100
abbrev part6 (v130 : FVec F S1x768 .f32) : Prog (TpuEff nD τ sig (Elt F) Λ₀ .tc) (FVec F S1x768 .f32) :=
  k0_part6 (Memref.whole main_arg0) (Memref.isWhole_whole _) (Memref.whole cc0_stg0_0) (Memref.isWhole_whole _) (Memref.whole cc0_scratch0) (Memref.isWhole_whole _) cc0_scratch1 (Memref.whole cc0_scratch2) (Memref.isWhole_whole _) cc0_scratch3 cc0_scratch4 v130
abbrev part7 (d0 : Dev nD) (v2 : BitVec 32) (v8 : Sems sig S_) (v160 : FVec F S1x768 .f32) : Prog (TpuEff nD τ sig (Elt F) Λ₀ .tc) (BitVec 32) :=
  k0_part7 (Memref.whole main_arg0) (Memref.isWhole_whole _) (Memref.whole cc0_stg0_0) (Memref.isWhole_whole _) (Memref.whole cc0_scratch0) (Memref.isWhole_whole _) cc0_scratch1 (Memref.whole cc0_scratch2) (Memref.isWhole_whole _) cc0_scratch3 cc0_scratch4 d0 v2 v8 v160
abbrev part8 (d0 : Dev nD) (v2 v197 : BitVec 32) : Prog (TpuEff nD τ sig (Elt F) Λ₀ .tc) (BitVec 32) :=
  k0_part8 (Memref.whole main_arg0) (Memref.isWhole_whole _) (Memref.whole cc0_stg0_0) (Memref.isWhole_whole _) (Memref.whole cc0_scratch0) (Memref.isWhole_whole _) cc0_scratch1 (Memref.whole cc0_scratch2) (Memref.isWhole_whole _) cc0_scratch3 cc0_scratch4 d0 v2 v197
abbrev part9 (d0 : Dev nD) (v2 v227 : BitVec 32) : Prog (TpuEff nD τ sig (Elt F) Λ₀ .tc) (BitVec 32) :=
  k0_part9 (Memref.whole main_arg0) (Memref.isWhole_whole _) (Memref.whole cc0_stg0_0) (Memref.isWhole_whole _) (Memref.whole cc0_scratch0) (Memref.isWhole_whole _) cc0_scratch1 (Memref.whole cc0_scratch2) (Memref.isWhole_whole _) cc0_scratch3 cc0_scratch4 d0 v2 v227
abbrev bodyP : Prog (TpuEff nD τ sig (Elt F) Λ₀ .tc) PUnit :=
  cc0_body (Memref.whole main_arg0) (Memref.isWhole_whole _) (Memref.whole cc0_stg0_0) (Memref.isWhole_whole _) (Memref.whole cc0_scratch0) (Memref.isWhole_whole _) cc0_scratch1 (Memref.whole cc0_scratch2) (Memref.isWhole_whole _) cc0_scratch3 cc0_scratch4

end Parts

end Cert.KernelIdealProof
end
-- ==== Proof.KernelIdeal.Sched.lean ====
import proofs.«901075_g7700000000001076_dist_sum_ax0_shard0_i_m1536_n768_v7x_i16_bf16_1_alg».proof.Proof.KernelIdeal.Proto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem kind_cp (s : Fin 2) : kindOf (.dma (cpSem s) : SemLoc sig) = .cp s := by revert s; decide
theorem kind_send (t : Dev nD) : kindOf (.dma (sendSem t) : SemLoc sig) = .send t := by revert t; decide
theorem kind_recv (j : Dev nD) : kindOf (.dma (recvSem j) : SemLoc sig) = .recv j := by revert j; decide

section Tables
variable (c t j : Dev nD) (s : Fin 2)

theorem duties_bar : (Rd (F := F) m).duties (barCell c) 0 = Finset.univ.erase c := by
  dsimp only [Rd]; rw [if_pos rfl]; exact if_pos rfl
theorem duties_cp (r : ℕ) (hr : r < 4) : (Rd (F := F) m).duties (cpCell c s) r = {0} := by
  dsimp only [Rd]; rw [if_pos rfl, kind_cp]; exact if_pos hr
theorem duties_send (h : t ≠ c) : (Rd (F := F) m).duties (sendCell c t) 0 = {0} := by
  dsimp only [Rd]; rw [if_pos rfl, kind_send]; exact if_pos ⟨rfl, h⟩
theorem duties_recv (h : j ≠ c) : (Rd (F := F) m).duties (recvCell c j) 0 = {0} := by
  dsimp only [Rd]; rw [if_pos rfl, kind_recv]; exact if_pos ⟨rfl, h⟩
theorem duties_send_self (r : ℕ) : (Rd (F := F) m).duties (sendCell c c) r = ∅ := by
  dsimp only [Rd]; rw [if_pos rfl, kind_send]; exact if_neg fun h => h.2 rfl
theorem duties_recv_self (r : ℕ) : (Rd (F := F) m).duties (recvCell c c) r = ∅ := by
  dsimp only [Rd]; rw [if_pos rfl, kind_recv]; exact if_neg fun h => h.2 rfl
theorem duties_cp_later : ∀ r, 4 ≤ r → (Rd (F := F) m).duties (cpCell c s) r = ∅ := fun r hr => by
  dsimp only [Rd]; rw [if_pos rfl, kind_cp]; exact if_neg fun h => by omega
theorem duties_send_later : ∀ r, 1 ≤ r → (Rd (F := F) m).duties (sendCell c t) r = ∅ := fun r hr => by
  dsimp only [Rd]; rw [if_pos rfl, kind_send]; exact if_neg fun h => by omega
theorem duties_recv_later : ∀ r, 1 ≤ r → (Rd (F := F) m).duties (recvCell c j) r = ∅ := fun r hr => by
  dsimp only [Rd]; rw [if_pos rfl, kind_recv]; exact if_neg fun h => by omega

theorem amount_bar (r : ℕ) (d : Dev nD) : (Rd (F := F) m).amount (barCell c) r d = 1 := rfl
theorem amount_cp (r : ℕ) (d : Dev nD) : (Rd (F := F) m).amount (cpCell c s) r d = Ncp := by
  dsimp only [Rd]; rw [kind_cp]
theorem amount_send (r : ℕ) (d : Dev nD) : (Rd (F := F) m).amount (sendCell c t) r d = Nrow := by
  dsimp only [Rd]; rw [kind_send]
theorem amount_recv (r : ℕ) (d : Dev nD) : (Rd (F := F) m).amount (recvCell c j) r d = Nrow := by
  dsimp only [Rd]; rw [kind_recv]

theorem expect_bar : (Rd (F := F) m).expect (barCell c) 0 = 15 := by
  unfold Schedule.expect Schedule.amountOf
  rw [duties_bar, Finset.sum_congr rfl fun d _ => amount_bar m c 0 d, Finset.sum_const,
    Finset.card_erase_of_mem (Finset.mem_univ c), Finset.card_univ, Fintype.card_fin, smul_eq_mul]
  rfl
theorem expect_cp (r : ℕ) (hr : r < 4) : (Rd (F := F) m).expect (cpCell c s) r = Ncp := by
  unfold Schedule.expect Schedule.amountOf; rw [duties_cp m c s r hr, Finset.sum_singleton, amount_cp]
theorem expect_send (h : t ≠ c) : (Rd (F := F) m).expect (sendCell c t) 0 = Nrow := by
  unfold Schedule.expect Schedule.amountOf; rw [duties_send m c t h, Finset.sum_singleton, amount_send]
theorem expect_recv (h : j ≠ c) : (Rd (F := F) m).expect (recvCell c j) 0 = Nrow := by
  unfold Schedule.expect Schedule.amountOf; rw [duties_recv m c j h, Finset.sum_singleton, amount_recv]

theorem payload_bar (d : Dev nD) : (Rd (F := F) m).payload (barCell c) 0 d = barPay c d := rfl
theorem payload_cp (r : ℕ) (d : Dev nD) : (Rd (F := F) m).payload (cpCell c s) r d = cpPay m c s r := by
  dsimp only [Rd]; rw [kind_cp]
theorem payload_send (d : Dev nD) : (Rd (F := F) m).payload (sendCell c t) 0 d = sendPay m c t := by
  dsimp only [Rd]; rw [kind_send]
theorem payload_recv (d : Dev nD) : (Rd (F := F) m).payload (recvCell c j) 0 d = recvPay m c j := by
  dsimp only [Rd]; rw [kind_recv]

theorem rest_bar : bigSep ((Rd (F := F) m).duties (barCell c) 0 \ ∅) (fun d => (Rd (F := F) m).payload (barCell c) 0 d)
    = bigSep (Finset.univ.erase c) (fun d => barPay (F := F) c d) := by
  rw [Finset.sdiff_empty, duties_bar]; exact bigSep_congr fun d _ => payload_bar m c d
theorem rest_cp (r : ℕ) (hr : r < 4) : bigSep ((Rd (F := F) m).duties (cpCell c s) r \ ∅) (fun d => (Rd (F := F) m).payload (cpCell c s) r d)
    = cpPay m c s r := by
  rw [Finset.sdiff_empty, duties_cp m c s r hr, bigSep_singleton, payload_cp]
theorem rest_send (h : t ≠ c) : bigSep ((Rd (F := F) m).duties (sendCell c t) 0 \ ∅) (fun d => (Rd (F := F) m).payload (sendCell c t) 0 d)
    = sendPay m c t := by
  rw [Finset.sdiff_empty, duties_send m c t h, bigSep_singleton, payload_send]
theorem rest_recv (h : j ≠ c) : bigSep ((Rd (F := F) m).duties (recvCell c j) 0 \ ∅) (fun d => (Rd (F := F) m).payload (recvCell c j) 0 d)
    = recvPay m c j := by
  rw [Finset.sdiff_empty, duties_recv m c j h, bigSep_singleton, payload_recv]

end Tables

end Cert.KernelIdealProof

end
-- ==== Proof.KernelIdeal.Owed.lean ====
import proofs.«901075_g7700000000001076_dist_sum_ax0_shard0_i_m1536_n768_v7x_i16_bf16_1_alg».proof.Proof.KernelIdeal.Proto
import proofs.«901075_g7700000000001076_dist_sum_ax0_shard0_i_m1536_n768_v7x_i16_bf16_1_alg».proof.Proof.KernelIdeal.Sched

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Peers
variable (c t : Dev nD)

theorem peers_ge_self : (Finset.univ.erase c).filter (fun t' : Dev nD => c.val ≤ t'.val)
    = (Finset.univ.erase c).filter (fun t' : Dev nD => c.val + 1 ≤ t'.val) := by
  refine Finset.filter_congr fun x hx => ?_
  have hne : x.val ≠ c.val := fun h => Finset.ne_of_mem_erase hx (Fin.ext h)
  omega

theorem peers_ge_step (h : t ≠ c) : (Finset.univ.erase c).filter (fun t' : Dev nD => t.val ≤ t'.val)
    = insert t ((Finset.univ.erase c).filter (fun t' : Dev nD => t.val + 1 ≤ t'.val)) := by
  ext x
  rw [Finset.mem_insert, Finset.mem_filter, Finset.mem_filter, Finset.mem_erase]
  constructor
  · rintro ⟨⟨hxc, _⟩, hle⟩
    by_cases hxt : x = t
    · exact Or.inl hxt
    · have hv : x.val ≠ t.val := fun h' => hxt (Fin.ext h')
      exact Or.inr ⟨⟨hxc, Finset.mem_univ _⟩, by omega⟩
  · rintro (rfl | ⟨hx, hle⟩)
    · exact ⟨⟨h, Finset.mem_univ _⟩, le_refl _⟩
    · exact ⟨hx, by omega⟩

theorem peers_ge_notMem : t ∉ (Finset.univ.erase c).filter (fun t' : Dev nD => t.val + 1 ≤ t'.val) := by
  rw [Finset.mem_filter]; rintro ⟨_, h⟩; omega

theorem peers_lt_self : (Finset.univ.erase c).filter (fun t' : Dev nD => t'.val < c.val + 1)
    = (Finset.univ.erase c).filter (fun t' : Dev nD => t'.val < c.val) := by
  refine Finset.filter_congr fun x hx => ?_
  have hne : x.val ≠ c.val := fun h => Finset.ne_of_mem_erase hx (Fin.ext h)
  omega

theorem peers_lt_step (h : t ≠ c) : (Finset.univ.erase c).filter (fun t' : Dev nD => t'.val < t.val + 1)
    = insert t ((Finset.univ.erase c).filter (fun t' : Dev nD => t'.val < t.val)) := by
  ext x
  rw [Finset.mem_insert, Finset.mem_filter, Finset.mem_filter, Finset.mem_erase]
  constructor
  · rintro ⟨⟨hxc, _⟩, hlt⟩
    by_cases hxt : x = t
    · exact Or.inl hxt
    · have hv : x.val ≠ t.val := fun h' => hxt (Fin.ext h')
      exact Or.inr ⟨⟨hxc, Finset.mem_univ _⟩, by omega⟩
  · rintro (rfl | ⟨hx, hlt⟩)
    · exact ⟨⟨h, Finset.mem_univ _⟩, Nat.lt_succ_self _⟩
    · exact ⟨hx, by omega⟩

theorem peers_lt_notMem : t ∉ (Finset.univ.erase c).filter (fun t' : Dev nD => t'.val < t.val) := by
  rw [Finset.mem_filter]; rintro ⟨_, h⟩; omega

theorem peers_ge_16 : (Finset.univ.erase c).filter (fun t' : Dev nD => 16 ≤ t'.val) = ∅ :=
  Finset.filter_false_of_mem fun x _ => by have : x.val < 16 := x.isLt; omega
theorem peers_lt_0 : (Finset.univ.erase c).filter (fun t' : Dev nD => t'.val < 0) = ∅ :=
  Finset.filter_false_of_mem fun x _ => Nat.not_lt_zero _
theorem peers_ge_0 : (Finset.univ.erase c).filter (fun t' : Dev nD => 0 ≤ t'.val) = Finset.univ.erase c :=
  Finset.filter_true_of_mem fun x _ => Nat.zero_le _
theorem peers_lt_16 : (Finset.univ.erase c).filter (fun t' : Dev nD => t'.val < 16) = Finset.univ.erase c :=
  Finset.filter_true_of_mem fun x _ => x.isLt

end Peers

section Owed
variable (c t : Dev nD)

theorem owedSig_step (h : t ≠ c) : owedSig c t.val = owedSig c (t.val + 1) + tallyAt (barCell t) () 1 := by
  unfold owedSig
  rw [peers_ge_step c t h, Finset.sum_insert (peers_ge_notMem c t), add_comm]
theorem owedSig_self : owedSig c c.val = owedSig c (c.val + 1) := by
  unfold owedSig; rw [peers_ge_self]
theorem owedSend_step (h : t ≠ c) : owedSend c t.val = owedSend c (t.val + 1) + tallyAt (recvCell t c) () Nrow := by
  unfold owedSend
  rw [peers_ge_step c t h, Finset.sum_insert (peers_ge_notMem c t), add_comm]
theorem owedSend_self : owedSend c c.val = owedSend c (c.val + 1) := by
  unfold owedSend; rw [peers_ge_self]
theorem owedSig_16 : owedSig c 16 = 0 := by
  unfold owedSig; rw [peers_ge_16, Finset.sum_empty]
theorem owedSend_16 : owedSend c 16 = 0 := by
  unfold owedSend; rw [peers_ge_16, Finset.sum_empty]

theorem owedAt_sig_step (k₂ : ℕ) (h : t ≠ c) : owedAt c t.val k₂ = owedAt c (t.val + 1) k₂ + tallyAt (barCell t) () 1 := by
  unfold owedAt; rw [owedSig_step c t h, add_assoc]
theorem owedAt_sig_self (k₂ : ℕ) : owedAt c c.val k₂ = owedAt c (c.val + 1) k₂ := by
  unfold owedAt; rw [owedSig_self]
theorem owedAt_send_step (k₁ : ℕ) (h : t ≠ c) : owedAt c k₁ t.val = owedAt c k₁ (t.val + 1) + tallyAt (recvCell t c) () Nrow := by
  unfold owedAt; rw [owedSend_step c t h, add_right_comm]
theorem owedAt_send_self (k₁ : ℕ) : owedAt c k₁ c.val = owedAt c k₁ (c.val + 1) := by
  unfold owedAt; rw [owedSend_self]
theorem owedAt_16_16 : owedAt c 16 16 = 0 := by
  unfold owedAt; rw [owedSig_16, owedSend_16, add_zero]

theorem sum_tally_pos {S : Finset (Dev nD)} {f : Dev nD → GSem nD τ sig} {n : ℕ} {g : GSem nD τ sig} {u : Unit}
    (h : 0 < (∑ t ∈ S, tallyAt (f t) () n : CellTallies nD τ sig Unit) g u) : ∃ t ∈ S, g = f t := by
  rw [Finset.sum_apply, Finsupp.finset_sum_apply] at h
  by_contra hn
  rw [Finset.sum_eq_zero (fun t ht => by rw [tallyAt_apply, if_neg (fun h' => hn ⟨t, ht, h'.1⟩)])] at h
  exact Nat.lt_irrefl 0 h

theorem owedAt_pos {c : Dev nD} {k₁ k₂ : ℕ} {g : GSem nD τ sig} {u : Unit} (h : 0 < owedAt c k₁ k₂ g u) :
    (∃ t : Dev nD, k₂ ≤ t.val ∧ g = recvCell t c) ∨ (∃ t : Dev nD, k₁ ≤ t.val ∧ g = barCell t) := by
  unfold owedAt at h
  rw [Pi.add_apply, Finsupp.add_apply] at h
  rcases Nat.eq_zero_or_pos (owedSend c k₂ g u) with h0 | hp
  · rw [h0, zero_add] at h
    unfold owedSig at h
    obtain ⟨t, ht, rfl⟩ := sum_tally_pos h
    exact Or.inr ⟨t, (Finset.mem_filter.mp ht).2, rfl⟩
  · unfold owedSend at hp
    obtain ⟨t, ht, rfl⟩ := sum_tally_pos hp
    exact Or.inl ⟨t, (Finset.mem_filter.mp ht).2, rfl⟩

end Owed

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := rfl
theorem lv_recv (c j : Dev nD) (u : Unit) : lv (recvCell c j) u = 2 := by
  show (match kindOf (SemLoc.dma (recvSem j)) with | .bar => 1 | .recv _ => 2 | _ => 0) = 2
  rw [kind_recv]
theorem lv_cp (c : Dev nD) (s : Fin 2) (u : Unit) : lv (cpCell c s) u = 0 := by
  show (match kindOf (SemLoc.dma (cpSem s)) with | .bar => 1 | .recv _ => 2 | _ => 0) = 0
  rw [kind_cp]
theorem lv_stage (c : Dev nD) (q : DmaSem sig) (hq : q.val = 0) (u : Unit) : lv ((c : Thread nD τ), .dma q) u = 0 := by
  have hk : kindOf (SemLoc.dma q) = .other := by unfold kindOf; dsimp only; rw [dif_pos hq]
  show (match kindOf (SemLoc.dma q) with | .bar => 1 | .recv _ => 2 | _ => 0) = 0
  rw [hk]

omit [FloatOps F] in

theorem mayWait_lv0 (c : Dev nD) (sm : SemLoc sig) (h0 : lv ((c : Thread nD τ), sm) () = 0) (k₁ k₂ : ℕ) :
    (levAts L lv : sProp 𝕄) ⊢ MayWait (c : Thread nD τ) sm () (owedAt c k₁ k₂) :=
  MayOwe.of_cut (L := L) (lev := lv) 0
    (fun p hp => by rw [Finset.mem_singleton.mp hp, L_tc]; exact Finset.mem_singleton_self _)
    (fun g u hg => by
      rcases owedAt_pos hg with ⟨t, _, rfl⟩ | ⟨t, _, rfl⟩ <;> rw [L_tc] <;> exact Finset.mem_singleton_self _)
    (fun p hp => by rw [Finset.mem_singleton.mp hp]; exact le_of_eq h0)
    (fun g u hg => by
      rcases owedAt_pos hg with ⟨t, _, rfl⟩ | ⟨t, _, rfl⟩
      · rw [lv_recv]; decide
      · rw [lv_bar]; decide)

omit [FloatOps F] in

theorem mayWait_cp (c : Dev nD) (s : Fin 2) (k₁ k₂ : ℕ) :
    (levAts L lv : sProp 𝕄) ⊢ MayWait (c : Thread nD τ) (.dma (cpSem s)) () (owedAt c k₁ k₂) :=
  mayWait_lv0 c _ (lv_cp c s ()) k₁ k₂
omit [FloatOps F] in

theorem mayWait_stage (c : Dev nD) (q : DmaSem sig) (hq : q.val = 0) (k₁ k₂ : ℕ) :
    (levAts L lv : sProp 𝕄) ⊢ MayWait (c : Thread nD τ) (.dma q) () (owedAt c k₁ k₂) :=
  mayWait_lv0 c _ (lv_stage c q hq ()) k₁ k₂
omit [FloatOps F] in

theorem mayWait_bar (c : Dev nD) (k₂ : ℕ) :
    (levAts L lv : sProp 𝕄) ⊢ MayWait (c : Thread nD τ) (.reg barS) () (owedAt c 16 k₂) :=
  MayOwe.of_cut (L := L) (lev := lv) 1
    (fun p hp => by rw [Finset.mem_singleton.mp hp, L_tc]; exact Finset.mem_singleton_self _)
    (fun g u hg => by
      rcases owedAt_pos hg with ⟨t, _, rfl⟩ | ⟨t, _, rfl⟩ <;> rw [L_tc] <;> exact Finset.mem_singleton_self _)
    (fun p hp => by rw [Finset.mem_singleton.mp hp]; exact le_of_eq (lv_bar c ()))
    (fun g u hg => by
      rcases owedAt_pos hg with ⟨t, _, rfl⟩ | ⟨t, ht, rfl⟩
      · rw [lv_recv]; decide
      · exact absurd ht (by have : t.val < 16 := t.isLt; omega))

section Cursors
variable (c t : Dev nD) (Φ : Dev nD → sProp (MT nD τ sig Unit (Elt F) ℕ UU ℕ))

omit [FloatOps F] in
theorem Gd_self (P : sProp 𝕄) : Gd c c P = iprop(emp) := if_pos rfl
omit [FloatOps F] in
theorem Gd_ne (h : t ≠ c) (P : sProp 𝕄) : Gd c t P = P := if_neg h

omit [FloatOps F] in
theorem peersFrom_step : peersFrom c t.val Φ ⊣⊢ iprop(Gd c t (Φ t) ∗ peersFrom c (t.val + 1) Φ) := by
  unfold peersFrom
  by_cases h : t = c
  · subst h; rw [Gd_self, peers_ge_self]; exact ⟨BIClass.emp_sep.2, BIClass.emp_sep.1⟩
  · rw [Gd_ne c t h, peers_ge_step c t h, bigSep_insert (peers_ge_notMem c t)]; exact ⟨.rfl, .rfl⟩
omit [FloatOps F] in
theorem peersUpto_step : peersUpto c (t.val + 1) Φ ⊣⊢ iprop(peersUpto c t.val Φ ∗ Gd c t (Φ t)) := by
  unfold peersUpto
  by_cases h : t = c
  · subst h; rw [Gd_self, peers_lt_self]; exact ⟨Laws.sep_emp.2, Laws.sep_emp.1⟩
  · rw [Gd_ne c t h, peers_lt_step c t h, bigSep_insert (peers_lt_notMem c t)]; exact Laws.sep_comm
omit [FloatOps F] in
theorem peersFrom_16 : peersFrom c 16 Φ = iprop(emp) := by
  unfold peersFrom; rw [peers_ge_16]; rfl
omit [FloatOps F] in
theorem peersUpto_0 : peersUpto c 0 Φ = iprop(emp) := by
  unfold peersUpto; rw [peers_lt_0]; rfl
omit [FloatOps F] in
theorem peersFrom_0 : peersFrom c 0 Φ = bigSep (Finset.univ.erase c) Φ := by
  unfold peersFrom; rw [peers_ge_0]
omit [FloatOps F] in
theorem peersUpto_16 : peersUpto c 16 Φ = bigSep (Finset.univ.erase c) Φ := by
  unfold peersUpto; rw [peers_lt_16]

end Cursors

section Records
variable (K : Dev nD × Fin 35 → ℕ) (c t : Dev nD) (s : Fin 2)

theorem kcell_bar : kcell (c, (0 : Fin 35)) = barCell c := rfl

theorem kcell_dma (k : Fin 35) (hk : k.val ≠ 0) : kcell (c, k) = ((c : Thread nD τ), SemLoc.dma ⟨k.val, k.isLt⟩) := by
  show ((c : Thread nD τ), csem k) = _
  unfold csem; rw [if_neg hk]
theorem kcell_cp : kcell (c, (⟨1 + s.val, by have := s.isLt; omega⟩ : Fin 35)) = cpCell c s :=
  kcell_dma c _ (by show 1 + s.val ≠ 0; omega)
theorem kcell_send : kcell (c, (⟨3 + t.val, by have : t.val < 16 := t.isLt; omega⟩ : Fin 35)) = sendCell c t :=
  kcell_dma c _ (by show 3 + t.val ≠ 0; omega)
theorem kcell_recv : kcell (c, (⟨19 + t.val, by have : t.val < 16 := t.isLt; omega⟩ : Fin 35)) = recvCell c t :=
  kcell_dma c _ (by show 19 + t.val ≠ 0; omega)

theorem rec_at (ck : Dev nD × Fin 35) : records m K ⊢ iprop(∃ κ : ℕ, cellInv ER (Rd m) κ (kcell ck)) := by
  unfold records
  iintro ⟨H, -⟩
  have h : (bigSep Finset.univ fun ck : Dev nD × Fin 35 => cellInv ER (Rd m) (K ck) (kcell ck))
      ⊢ cellInv ER (Rd m) (K ck) (kcell ck) := bigSep_elim (Finset.mem_univ ck)
  iexists K ck
  iapply h
  iexact H
theorem reached_at (ck : Dev nD × Fin 35) : records m K ⊢ reached ER (kcell ck) 0 := by
  unfold records
  iintro ⟨-, H⟩
  have h : (bigSep Finset.univ fun ck : Dev nD × Fin 35 => (reached ER (kcell ck) 0 : sProp 𝕄))
      ⊢ reached ER (kcell ck) 0 := bigSep_elim (Finset.mem_univ ck)
  iapply h
  iexact H

theorem rec_bar : records m K ⊢ iprop(∃ κ : ℕ, cellInv ER (Rd m) κ (barCell c)) := by
  have h := rec_at m K (c, (0 : Fin 35)); rw [kcell_bar] at h; exact h
theorem rec_cp : records m K ⊢ iprop(∃ κ : ℕ, cellInv ER (Rd m) κ (cpCell c s)) := by
  have h := rec_at m K (c, (⟨1 + s.val, by have := s.isLt; omega⟩ : Fin 35)); rw [kcell_cp] at h; exact h
theorem rec_send : records m K ⊢ iprop(∃ κ : ℕ, cellInv ER (Rd m) κ (sendCell c t)) := by
  have h := rec_at m K (c, (⟨3 + t.val, by have : t.val < 16 := t.isLt; omega⟩ : Fin 35)); rw [kcell_send] at h; exact h
theorem rec_recv : records m K ⊢ iprop(∃ κ : ℕ, cellInv ER (Rd m) κ (recvCell c t)) := by
  have h := rec_at m K (c, (⟨19 + t.val, by have : t.val < 16 := t.isLt; omega⟩ : Fin 35)); rw [kcell_recv] at h; exact h
theorem reached_bar : records m K ⊢ reached ER (barCell c) 0 := by
  have h := reached_at m K (c, (0 : Fin 35)); rw [kcell_bar] at h; exact h
theorem reached_cp : records m K ⊢ reached ER (cpCell c s) 0 := by
  have h := reached_at m K (c, (⟨1 + s.val, by have := s.isLt; omega⟩ : Fin 35)); rw [kcell_cp] at h; exact h
theorem reached_send : records m K ⊢ reached ER (sendCell c t) 0 := by
  have h := reached_at m K (c, (⟨3 + t.val, by have : t.val < 16 := t.isLt; omega⟩ : Fin 35)); rw [kcell_send] at h; exact h
theorem reached_recv : records m K ⊢ reached ER (recvCell c t) 0 := by
  have h := reached_at m K (c, (⟨19 + t.val, by have : t.val < 16 := t.isLt; omega⟩ : Fin 35)); rw [kcell_recv] at h; exact h

end Records

end Cert.KernelIdealProof

end
-- ==== Proof.KernelIdeal.Blocks.lean ====
import proofs.«901075_g7700000000001076_dist_sum_ax0_shard0_i_m1536_n768_v7x_i16_bf16_1_alg».proof.Proof.KernelIdeal.Proto
import proofs.«901075_g7700000000001076_dist_sum_ax0_shard0_i_m1536_n768_v7x_i16_bf16_1_alg».proof.Proof.KernelIdeal.Sched
import proofs.«901075_g7700000000001076_dist_sum_ax0_shard0_i_m1536_n768_v7x_i16_bf16_1_alg».proof.Proof.KernelIdeal.Owed

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Blocks

omit [FloatOps F] in

private theorem row_credit (j : Dev nD) : (rowM j).view.dmaCredit = Nrow := rfl

private theorem landed (c t : Dev nD) (fd : Buf (Elt F) ((rowM c).view.loc (t : Thread nD τ))) :
    (((rowM c).view.loc (t : Thread nD τ)) ↦[(rowM c).view.set]{fullShare}
        ((rowM c).view.write (Elt F) fd ((rowM c).view.read (Elt F) (commBuf m c)) Finset.univ) : sProp 𝕄)
      = recvPay m t c := by
  unfold recvPay
  rw [View.write_read_eq_piecewise]
  exact pointsTo_congr (fun i hi => Finset.piecewise_eq_of_mem _ _ _ hi)

-- One guarded block of each kind at a symbolic device and peer: for the device's own number nothing is guarded and nothing runs.
theorem sig_block (K : Dev nD × Fin 35 → ℕ) (c t : Dev nD) (cond : BitVec 1) (hcond : cond = 1#1 ↔ t ≠ c)
    {α : Type} (J : Prog (TpuEff nD τ sig (Elt F) Λ₀ .tc) α) (Q : α → sProp 𝕄)
    (dev : cond = 1#1 → Dev nD) (hdev : ∀ h, dev h = t) (sm : Sem sig) (hsm : sm = barS)
    (amt : BitVec 32) (hamt : amt.msb = false) (hamt1 : amt = 1#32) (k₂ : ℕ) (W : Waits sig Unit) :
    iprop(records m K ∗ owes (c : Thread nD τ) (owedAt c t.val k₂) W ∗ Gd c t (sigRes (F := F) c t))
      ⊢ iprop((owes (c : Thread nD τ) (owedAt c (t.val + 1) k₂) W -∗ wp frame (wpE (defs₀ (F := F)) 𝒱₀ c none) Set.univ J Q)
          -∗ wp frame (wpE (defs₀ (F := F)) 𝒱₀ c none) Set.univ
              (if h : cond = 1#1 then do
                semSignalWord (dev h) sm amt hamt
                J
              else J) Q) := by
  by_cases h : cond = 1#1
  · have htc : t ≠ c := hcond.mp h
    subst hsm hamt1
    rw [Gd_ne c t htc, dif_pos h, hdev h]
    simp only [semSignalWord, Prog.bind_op, Prog.bind_ret]
    rw [show (1#32 : BitVec 32).toNat = 1 from rfl]
    unfold sigRes
    iintro ⟨#Hrec, Ho, Htok, Hrow⟩ Hk
    ihave Hinv := (rec_bar m K t) $$ Hrec
    icases Hinv with ⟨%κ, #Hinv⟩
    ihave #Hrb := (reached_bar m K t) $$ Hrec
    ihave #Hrr := (reached_recv m K c t) $$ Hrec
    iapply (Rounds.wp_signal 𝒱₀ ER (Rd m) (c : Thread nD τ) none (dst := (t : Thread nD τ)) (sem := barS) (r := 0) (d := c) (k' := 1) (k := fun _ => J)
      (by rw [duties_bar]; exact Finset.mem_erase.mpr ⟨Ne.symm htc, Finset.mem_univ c⟩)
      (amount_bar m t 0 c) () (owedAt c (t.val + 1) k₂) (owedAt_sig_step c t k₂ htc)) $$ [Ho Htok Hrow]
    · isplitr; · iexact Hinv
      isplitl [Ho]; · iexact Ho
      isplitl [Htok]; · iexact Htok
      isplitl [Hrow]
      · rw [payload_bar]; unfold barPay rowAny
        isplitl [Hrow]; · iexact Hrow
        iexact Hrr
      iexact Hrb
    iexact Hk
  · have htc : t = c := by by_contra hne; exact h (hcond.mpr hne)
    subst htc
    rw [Gd_self, dif_neg h, owedAt_sig_self]
    iintro ⟨-, Ho, -⟩ Hk
    iapply Hk
    iexact Ho

theorem copy_block (K : Dev nD × Fin 35 → ℕ) (c t : Dev nD) (cond : BitVec 1) (hcond : cond = 1#1 ↔ t ≠ c)
    {α : Type} (J : Prog (TpuEff nD τ sig (Elt F) Λ₀ .tc) α) (Q : α → sProp 𝕄)
    (dev : cond = 1#1 → Dev nD) (hdev : ∀ h, dev h = t)
    (src dst : cond = 1#1 → Memref sig .tc .vmem S1x768 .f32) (hsrc : ∀ h, src h = rowM c) (hdst : ∀ h, dst h = rowM c)
    (sS sR : cond = 1#1 → DmaSem sig) (hsS : ∀ h, sS h = sendSem t) (hsR : ∀ h, sR h = recvSem c)
    (w1 : ∀ h, (src h).view.WordExact) (w2 : ∀ h, (dst h).view.WordExact) (hsc : ∀ h, (dst h).view.ref.isScScratch = false)
    (ty : ∀ h, DmaTarget.Typed .vmem (.dma (sR h)) (.remote (Dev.tc (dev h) : Thread nD τ) (dst h) (.dma (sS h)) (hsc h)))
    (k₁ : ℕ) (W : Waits sig Unit) :
    iprop(records m K ∗ owes (c : Thread nD τ) (owedAt c k₁ t.val) W ∗ Gd c t (sendRes m c t))
      ⊢ iprop((iprop(owes (c : Thread nD τ) (owedAt c k₁ (t.val + 1)) W ∗ Gd c t (sentRes (F := F) c t)) -∗ wp frame (wpE (defs₀ (F := F)) 𝒱₀ c none) Set.univ J Q)
          -∗ wp frame (wpE (defs₀ (F := F)) 𝒱₀ c none) Set.univ
              (if h : cond = 1#1 then do
                Prog.lift (.enqueueDma (src h) (.remote (Dev.tc (dev h) : Thread nD τ) (dst h) (.dma (sS h)) (hsc h)) (.dma (sR h)) (w1 h) (w2 h) (ty h))
                J
              else J) Q) := by
  obtain rfl : dev = fun _ => t := funext hdev
  obtain rfl : src = fun _ => rowM c := funext hsrc
  obtain rfl : dst = fun _ => rowM c := funext hdst
  obtain rfl : sS = fun _ => sendSem t := funext hsS
  obtain rfl : sR = fun _ => recvSem c := funext hsR
  by_cases h : cond = 1#1
  · have htc : t ≠ c := hcond.mp h
    rw [Gd_ne c t htc, Gd_ne c t htc, dif_pos h]
    simp only [Prog.bind_lift]
    unfold sendRes sendPay rowAny owns
    iintro ⟨#Hrec, Ho, Htk1, Htk2, ⟨%X, %fd, %hfd, Hdst⟩, Hsrc⟩ Hk
    ihave Hi1 := (rec_send m K c t) $$ Hrec
    icases Hi1 with ⟨%κ₁, #Hi1⟩
    ihave Hi2 := (rec_recv m K t c) $$ Hrec
    icases Hi2 with ⟨%κ₂, #Hi2⟩
    ihave #Hr1 := (reached_send m K c t) $$ Hrec
    ihave #Hr2 := (reached_recv m K t c) $$ Hrec
    iapply (Rounds.wp_send_pointsTo 𝒱₀ ER (Rd m) (c : Thread nD τ) none (c' := (t : Thread nD τ)) (src := rowM c) (dst := rowM c)
      (sS := .dma (sendSem t)) (sem := .dma (recvSem c)) (k := fun _ => J) (q := rowShare t) (fs := commBuf m c) (fd := fd)
      (r₁ := 0) (r₂ := 0) (d₁ := 0) (d₂ := 0)
      (by rw [duties_send m c t htc]; exact Finset.mem_singleton_self _)
      (by rw [duties_recv m t c (Ne.symm htc)]; exact Finset.mem_singleton_self _)
      () () Nrow (row_credit c) (amount_send m c t 0 0) (amount_recv m t c 0 0)
      (owedAt c k₁ (t.val + 1)) (owedAt_send_step c t k₁ htc)
      (by rw [payload_send]; exact .rfl)
      (by rw [payload_recv, landed])) $$ [Ho Htk1 Htk2 Hdst Hsrc]
    · isplitr; · iexact Hi1
      isplitr; · iexact Hi2
      isplitl [Hsrc]; · iexact Hsrc
      isplitl [Hdst]; · iexact Hdst
      isplitl [Ho]; · iexact Ho
      isplitl [Htk1]; · iexact Htk1
      isplitr; · iexact Hr1
      isplitl [Htk2]; · iexact Htk2
      iexact Hr2

    iintro ⟨Hc, Ho⟩
    iapply Hk
    isplitl [Ho]; · iexact Ho
    unfold sentRes
    iexact Hc
  · have htc : t = c := by by_contra hne; exact h (hcond.mpr hne)
    subst htc
    rw [Gd_self, Gd_self, dif_neg h, owedAt_send_self]
    iintro ⟨-, Ho, -⟩ Hk
    iapply Hk
    isplitl [Ho]; · iexact Ho
    iempintro

theorem wait_block (K : Dev nD × Fin 35 → ℕ) (c t : Dev nD) (cond : BitVec 1) (hcond : cond = 1#1 ↔ t ≠ c)
    {α : Type} (J : Prog (TpuEff nD τ sig (Elt F) Λ₀ .tc) α) (Q : α → sProp 𝕄)
    (sR sS : cond = 1#1 → DmaSem sig) (hsR : ∀ h, sR h = recvSem t) (hsS : ∀ h, sS h = sendSem t)
    (a1 b1 a2 b2 : cond = 1#1 → Memref sig .tc .vmem S1x768 .f32)
    (ha1 : ∀ h, a1 h = rowM t) (hb1 : ∀ h, b1 h = rowM t) (ha2 : ∀ h, a2 h = rowM c) (hb2 : ∀ h, b2 h = rowM c)
    (w1 : ∀ h, (a1 h).view.WordExact) (w2 : ∀ h, (b1 h).view.WordExact) (w3 : ∀ h, (a2 h).view.WordExact) (w4 : ∀ h, (b2 h).view.WordExact)
    (W : Waits sig Unit) :
    iprop(records m K ∗ owes (c : Thread nD τ) 0 W ∗ Gd c t (iprop(sentRes (F := F) c t ∗ waitRes c t)))
      ⊢ iprop((iprop(owesE c 0 ∗ Gd c t (doneRes m c t)) -∗ wp frame (wpE (defs₀ (F := F)) 𝒱₀ c none) Set.univ J Q)
          -∗ wp frame (wpE (defs₀ (F := F)) 𝒱₀ c none) Set.univ
              (if h : cond = 1#1 then do
                Prog.lift (.waitDma2 (sR h) (a1 h) (b1 h) (w1 h) (w2 h))
                Prog.lift (.waitDma2 (sS h) (a2 h) (b2 h) (w3 h) (w4 h))
                J
              else J) Q) := by
  obtain rfl : sR = fun _ => recvSem t := funext hsR
  obtain rfl : sS = fun _ => sendSem t := funext hsS
  obtain rfl : a1 = fun _ => rowM t := funext ha1
  obtain rfl : b1 = fun _ => rowM t := funext hb1
  obtain rfl : a2 = fun _ => rowM c := funext ha2
  obtain rfl : b2 = fun _ => rowM c := funext hb2
  by_cases h : cond = 1#1
  · have htc : t ≠ c := hcond.mp h
    rw [Gd_ne c t htc, Gd_ne c t htc, dif_pos h]
    simp only [Prog.bind_lift, Prog.bind_op, Prog.bind_ret]
    unfold sentRes waitRes
    iintro ⟨#Hrec, Ho, Hcs, Hps, Hpr, Hcr⟩ Hk
    ihave Hi1 := (rec_recv m K c t) $$ Hrec
    icases Hi1 with ⟨%κ₁, #Hi1⟩
    ihave Hi2 := (rec_send m K c t) $$ Hrec
    icases Hi2 with ⟨%κ₂, #Hi2⟩

    iapply (Rounds.wp_wait_rest_token 𝒱₀ ER (Rd m) (c : Thread nD τ) none (w := .waitDma2 (recvSem t) (rowM t) (rowM t) (w1 h) (w2 h)) (sm := .dma (recvSem t))
      (k' := (rowM t).view.dmaCredit) (κ := κ₁)
      (wpE_waitDma2_eq 𝒱₀ (c : Thread nD τ) none Set.univ) (Set.mem_univ _)
      (k := fun _ => .op (.waitDma2 (sendSem t) (rowM c) (rowM c) (w3 h) (w4 h)) (fun _ => J)) () (O := 0) (W := W) (R := 0) (m := 0) (T := ∅)
      ((Nat.zero_add _).trans ((row_credit t).trans (expect_recv m c t htc).symm))) $$ [Ho Hpr Hcr]
    · isplitr; · iexact Hi1
      isplitl [Hcr]; · iexact Hcr
      isplitl [Ho]; · iexact Ho
      isplitr; · rw [MayWait_zero]; iempintro
      iexact Hpr
    rw [rest_recv m c t htc]
    iintro ⟨Ho, Hpr, -, Hpay1⟩

    iapply (Rounds.wp_wait_rest_token 𝒱₀ ER (Rd m) (c : Thread nD τ) none (w := .waitDma2 (sendSem t) (rowM c) (rowM c) (w3 h) (w4 h)) (sm := .dma (sendSem t))
      (k' := (rowM c).view.dmaCredit) (κ := κ₂)
      (wpE_waitDma2_eq 𝒱₀ (c : Thread nD τ) none Set.univ) (Set.mem_univ _)
      (k := fun _ => J) () (O := 0) (R := 0) (m := 0) (T := ∅)
      ((Nat.zero_add _).trans ((row_credit c).trans (expect_send m c t htc).symm))) $$ [Ho Hps Hcs]
    · isplitr; · iexact Hi2
      isplitl [Hcs]; · iexact Hcs
      isplitl [Ho]; · iexact Ho
      isplitr; · rw [MayWait_zero]; iempintro
      iexact Hps
    rw [rest_send m c t htc]
    iintro ⟨Ho, Hps, -, Hpay2⟩
    iapply Hk
    isplitl [Ho]
    · unfold owesE; iexists _; iexact Ho
    unfold doneRes
    isplitl [Hpay1]; · iexact Hpay1
    isplitl [Hpay2]; · iexact Hpay2
    isplitl [Hps]; · iexact Hps
    iexact Hpr
  · have htc : t = c := by by_contra hne; exact h (hcond.mpr hne)
    subst htc
    rw [Gd_self, Gd_self, dif_neg h]
    iintro ⟨-, Ho, -⟩ Hk
    iapply Hk
    isplitl [Ho]
    · unfold owesE; iexists _; iexact Ho
    iempintro

-- Every guard of the printed body is one test: the peer's number is not the device's.
theorem guard_iff : ∀ t c : Dev nD,
    Scalar.cmpi .ne (Scalar.extui (Scalar.cmpi .ne (Scalar.remsi (Scalar.divsi (Dev.word c) 1#32) 16#32) (BitVec.ofNat 32 t.val))) 0#32 = 1#1
      ↔ t ≠ c := by
  decide +kernel

abbrev rowAt (off : Fin 2 → Nat) (hin : ∀ a, off a + S1x768.size a ≤ S16x768.size a) : Memref sig .tc .vmem S1x768 .f32 :=
  commM.slice (Rect.unit (s := S16x768) off S1x768.size hin) (fun _ => rfl)
abbrev semAt (A : DmaSems sig S16) (off : Fin 1 → Nat) (hin : ∀ a, off a + S1.size a ≤ S16.size a) : DmaSem sig :=
  ((A.slice (Rect.unit (s := S16) off S1.size hin)).squeeze S_ squeezes_S1_S_).sem

omit [FloatOps F] in
-- A row, a send semaphore and a receive semaphore cut at the offset of a device's number are that device's.
theorem row_of_off (j : Dev nD) (off : Fin 2 → Nat) (hoff : off = ![j.val, 0])
    (hin : ∀ a, off a + S1x768.size a ≤ S16x768.size a) : rowAt off hin = rowM j := by
  subst hoff; rfl

omit [FloatOps F] in
theorem send_of_off (j : Dev nD) (off : Fin 1 → Nat) (hoff : off = ![j.val])
    (hin : ∀ a, off a + S1.size a ≤ S16.size a) : semAt cc0_scratch3 off hin = sendSem j := by
  subst hoff; revert hin; revert j; decide +kernel

omit [FloatOps F] in
theorem recv_of_off (j : Dev nD) (off : Fin 1 → Nat) (hoff : off = ![j.val])
    (hin : ∀ a, off a + S1.size a ≤ S16.size a) : semAt cc0_scratch4 off hin = recvSem j := by
  subst hoff; revert hin; revert j; decide +kernel

theorem Gd_sep (c t : Dev nD) (P R : sProp 𝕄) : iprop(Gd c t P ∗ Gd c t R) ⊢ Gd c t iprop(P ∗ R) := by
  by_cases h : t = c
  · rw [Gd, Gd, Gd, if_pos h, if_pos h, if_pos h]
    iintro ⟨H, -⟩; iexact H
  · rw [Gd, Gd, Gd, if_neg h, if_neg h, if_neg h]

theorem owesE_elim (c : Dev nD) (O : CellTallies nD τ sig Unit) :
    owesE (F := F) c O ⊢ iprop(∃ W, owes (c : Thread nD τ) O W) := by
  unfold owesE
  iintro H; iexact H

theorem wp_done (c : Dev nD) {α : Type} (p : Prog (TpuEff nD τ sig (Elt F) Λ₀ .tc) α) (a : α) (hp : p = pure a) (Q : α → sProp 𝕄) :
    Q a ⊢ wp frame (wpE (defs₀ (F := F)) 𝒱₀ c none) Set.univ p Q := by
  subst hp; rw [wp_pure]; exact fupd_intro

-- One guarded copy of the own row to peer `t`, in the printed form: the peer's part of what a copy takes goes in, the send
-- cell's credit comes out, and the row is owed to that peer no more.
theorem copy_step (K : Dev nD × Fin 35 → ℕ) (c t : Dev nD) (n : ℕ) (hn : t.val = n) {cond : BitVec 1}
    {dv : ℕ} (hdv : dv = n) (dlt : cond = 1#1 → dv < nD)
    {o : Fin 2 → Nat} (ho : o = ![c.val, 0]) (oi : cond = 1#1 → ∀ a, o a + S1x768.size a ≤ S16x768.size a)
    {p : Fin 1 → Nat} (hp : p = ![c.val]) (pi : cond = 1#1 → ∀ a, p a + S1.size a ≤ S16.size a)
    (si : ∀ a, (![n] : Fin 1 → Nat) a + S1.size a ≤ S16.size a) (hcond : cond = 1#1 ↔ t ≠ c)
    {α : Type} {J : Prog (TpuEff nD τ sig (Elt F) Λ₀ .tc) α} {Q : α → sProp 𝕄} :
    iprop(Ctx m K ∗ SB m c n ∗ (SB m c (n + 1) -∗ wp frame (wpE (defs₀ (F := F)) 𝒱₀ c none) Set.univ J Q))
      ⊢ wp frame (wpE (defs₀ (F := F)) 𝒱₀ c none) Set.univ
          (if h : cond = 1#1 then do
            Prog.lift (.enqueueDma (rowAt o (oi h)) (.remote (Dev.tc (⟨dv, dlt h⟩ : Dev nD) : Thread nD τ) (rowAt o (oi h)) (.dma (semAt cc0_scratch3 ![n] si)) rfl)
              (.dma (semAt cc0_scratch4 p (pi h))) (View.wordExact_bits rfl) (View.wordExact_bits rfl) ⟨⟨rfl, Or.inl rfl⟩, trivial⟩)
            J
          else J) Q := by
  subst hn
  unfold Ctx SB owesE
  iintro ⟨⟨#Hrec, -⟩, ⟨⟨%W, HO⟩, HF, HU, Hrest⟩, Hk⟩
  ihave HF' := (peersFrom_step c t (sendRes m c)).1 $$ HF
  icases HF' with ⟨Hg, HF⟩
  iapply (copy_block m (K := K) (c := c) (t := t) (cond := cond) (hcond := hcond) (J := J) (Q := Q)
    (dev := fun h => ⟨dv, dlt h⟩) (hdev := fun _ => Fin.ext hdv)
    (src := fun h => rowAt o (oi h)) (dst := fun h => rowAt o (oi h)) (hsrc := fun _ => row_of_off c _ ho _) (hdst := fun _ => row_of_off c _ ho _)
    (sS := fun _ => semAt cc0_scratch3 ![t.val] si) (sR := fun h => semAt cc0_scratch4 p (pi h))
    (hsS := fun _ => send_of_off t _ rfl _) (hsR := fun _ => recv_of_off c _ hp _)
    (w1 := fun _ => View.wordExact_bits rfl) (w2 := fun _ => View.wordExact_bits rfl) (hsc := fun _ => rfl)
    (ty := fun _ => ⟨⟨rfl, Or.inl rfl⟩, trivial⟩) (k₁ := 16) (W := W)) $$ [HO Hg]
  · isplitr; · iexact Hrec
    isplitl [HO]; · iexact HO
    iexact Hg
  iintro ⟨HO, Hs⟩
  iapply Hk
  isplitl [HO]; · iexists W; iexact HO
  isplitl [HF]; · iexact HF
  isplitl [HU Hs]
  · iapply (peersUpto_step c t (sentRes c)).2
    isplitl [HU]; · iexact HU
    iexact Hs
  iexact Hrest

-- The two guarded waits for peer `t`, in the printed form: the send cell's credit and what the waits take go in; the peer's
-- row, the lent share of the own row and both cells a round on come out.
theorem wait_step (K : Dev nD × Fin 35 → ℕ) (c t : Dev nD) (n : ℕ) (hn : t.val = n) {cond : BitVec 1}
    {o : Fin 2 → Nat} (ho : o = ![c.val, 0]) (oi : cond = 1#1 → ∀ a, o a + S1x768.size a ≤ S16x768.size a)
    (si : ∀ a, (![n] : Fin 1 → Nat) a + S1.size a ≤ S16.size a)
    (ri : ∀ a, (![n, 0] : Fin 2 → Nat) a + S1x768.size a ≤ S16x768.size a) (hcond : cond = 1#1 ↔ t ≠ c)
    {α : Type} {J : Prog (TpuEff nD τ sig (Elt F) Λ₀ .tc) α} {Q : α → sProp 𝕄} :
    iprop(Ctx m K ∗ SC m c n ∗ (SC m c (n + 1) -∗ wp frame (wpE (defs₀ (F := F)) 𝒱₀ c none) Set.univ J Q))
      ⊢ wp frame (wpE (defs₀ (F := F)) 𝒱₀ c none) Set.univ
          (if h : cond = 1#1 then do
            Prog.lift (.waitDma2 (semAt cc0_scratch4 ![n] si) (rowAt ![n, 0] ri) (rowAt ![n, 0] ri) (View.wordExact_bits rfl) (View.wordExact_bits rfl))
            Prog.lift (.waitDma2 (semAt cc0_scratch3 ![n] si) (rowAt o (oi h)) (rowAt o (oi h)) (View.wordExact_bits rfl) (View.wordExact_bits rfl))
            J
          else J) Q := by
  subst hn
  unfold Ctx SC owesE
  iintro ⟨⟨#Hrec, -⟩, ⟨⟨%W, HO⟩, HS, HW, HD, Hrest⟩, Hk⟩
  ihave HS' := (peersFrom_step c t (sentRes c)).1 $$ HS
  icases HS' with ⟨Hs, HS⟩
  ihave HW' := (peersFrom_step c t (waitRes c)).1 $$ HW
  icases HW' with ⟨Hw, HW⟩
  iapply (wait_block m (K := K) (c := c) (t := t) (cond := cond) (hcond := hcond) (J := J) (Q := Q)
    (sR := fun _ => semAt cc0_scratch4 ![t.val] si) (sS := fun _ => semAt cc0_scratch3 ![t.val] si)
    (hsR := fun _ => recv_of_off t _ rfl _) (hsS := fun _ => send_of_off t _ rfl _)
    (a1 := fun _ => rowAt ![t.val, 0] ri) (b1 := fun _ => rowAt ![t.val, 0] ri) (a2 := fun h => rowAt o (oi h)) (b2 := fun h => rowAt o (oi h))
    (ha1 := fun _ => row_of_off t _ rfl _) (hb1 := fun _ => row_of_off t _ rfl _) (ha2 := fun _ => row_of_off c _ ho _) (hb2 := fun _ => row_of_off c _ ho _)
    (w1 := fun _ => View.wordExact_bits rfl) (w2 := fun _ => View.wordExact_bits rfl)
    (w3 := fun _ => View.wordExact_bits rfl) (w4 := fun _ => View.wordExact_bits rfl) (W := W)) $$ [HO Hs Hw]
  · isplitr; · iexact Hrec
    isplitl [HO]; · iexact HO
    iapply (Gd_sep c t (sentRes c t) (waitRes c t))
    isplitl [Hs]; · iexact Hs
    iexact Hw
  iintro ⟨HO, Hd⟩
  ihave HO := (owesE_elim c 0) $$ HO
  iapply Hk
  isplitl [HO]; · iexact HO
  isplitl [HS]; · iexact HS
  isplitl [HW]; · iexact HW
  isplitl [HD Hd]
  · iapply (peersUpto_step c t (doneRes m c)).2
    isplitl [HD]; · iexact HD
    iexact Hd
  iexact Hrest

theorem Ctx_records (K : Dev nD × Fin 35 → ℕ) : Ctx m K ⊢ records m K := by
  unfold Ctx
  iintro ⟨#H, -⟩
  iexact H

theorem Ctx_levAts (K : Dev nD × Fin 35 → ℕ) : Ctx m K ⊢ (levAts L lv : sProp 𝕄) := by
  unfold Ctx
  iintro ⟨-, #H⟩
  iexact H

end Blocks

end Cert.KernelIdealProof

end
-- ==== Proof.KernelIdeal.Part12.lean ====
import proofs.«901075_g7700000000001076_dist_sum_ax0_shard0_i_m1536_n768_v7x_i16_bf16_1_alg».proof.Proof.KernelIdeal.Proto
import proofs.«901075_g7700000000001076_dist_sum_ax0_shard0_i_m1536_n768_v7x_i16_bf16_1_alg».proof.Proof.KernelIdeal.Blocks

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Part12

theorem wp_devId {α : Type} (c : Dev nD) (k : Dev nD → Prog (TpuEff nD τ sig (Elt F) Λ₀ .tc) α) (Q : α → sProp 𝕄) :
    wp frame (wpE (defs₀ (F := F)) 𝒱₀ c none) Set.univ (k c) Q
      ⊢ wp frame (wpE (defs₀ (F := F)) 𝒱₀ c none) Set.univ (Prog.lift .deviceId >>= k) Q := by
  rw [Prog.bind_lift, wp_deviceId]

theorem wp_pure_intro {α : Type} (c : Dev nD) (a : α) (Q : α → sProp 𝕄) :
    Q a ⊢ wp frame (wpE (defs₀ (F := F)) 𝒱₀ c none) Set.univ (pure a) Q := by
  rw [wp_pure]; exact fupd_intro

-- One signal block: the device owes and holds one peer less.
theorem sig_step (K : Dev nD × Fin 35 → ℕ) (c t : Dev nD) (k k' : ℕ) (hk : t.val = k) (hk' : k + 1 = k') {cond : BitVec 1}
    {dv : ℕ} (hdv : dv = k) (dlt : cond = 1#1 → dv < nD) (hcond : cond = 1#1 ↔ t ≠ c)
    {α : Type} {J : Prog (TpuEff nD τ sig (Elt F) Λ₀ .tc) α} {Q : α → sProp 𝕄} {W : Waits sig Unit} :
    records m K
      ⊢ iprop(owes (c : Thread nD τ) (owedAt c k 0) W -∗ peersFrom c k (sigRes (F := F) c)
          -∗ (owes (c : Thread nD τ) (owedAt c k' 0) W -∗ peersFrom c k' (sigRes (F := F) c)
                -∗ wp frame (wpE (defs₀ (F := F)) 𝒱₀ c none) Set.univ J Q)
          -∗ wp frame (wpE (defs₀ (F := F)) 𝒱₀ c none) Set.univ
              (if h : cond = 1#1 then do
                semSignalWord (⟨dv, dlt h⟩ : Dev nD) barS 1#32 hamt_1
                J
              else J) Q) := by
  subst hk hk'
  iintro #HR Ho Hp Hk
  ihave Hp2 := (peersFrom_step c t (sigRes (F := F) c)).1 $$ Hp
  icases Hp2 with ⟨Hg, Hp2⟩
  iapply (sig_block m K c t cond hcond J Q (fun h => ⟨dv, dlt h⟩) (fun _ => Fin.ext hdv) barS rfl 1#32 hamt_1 rfl 0 W) $$ [Ho Hg]
  · isplitr; · iexact HR
    isplitl [Ho]; · iexact Ho
    iexact Hg
  iintro Ho
  iapply Hk $$ Ho Hp2

end Part12

open Part12

theorem part1_spec (K : Dev nD × Fin 35 → ℕ) (c : Dev nD) :
    iprop(Ctx m K ∗ SA c 0 (Cp0 m c)) ⊢ wp frame (wpE (defs₀ (F := F)) 𝒱₀ c none) Set.univ (part1 (F := F))
      (fun r => iprop(⌜r.1 = c ∧ r.2.2 = barSems⌝ ∗ SA c 6 (Cp1 m c))) := by
  unfold part1; rw [k0_part1_eq_skeleton]; unfold k0_part1_skel
  unfold SA Ctx owesE Cp0 xAll slotAny owns
  have e0 : bigSepL [0, 1, 2, 3, 4, 5, 6, 7] (cpTok (F := F) c)
      = iprop(cpTok c 0 ∗ bigSepL [1, 2, 3, 4, 5, 6, 7] (cpTok c)) := rfl
  rw [e0]
  iintro ⟨⟨#HR, #HL⟩, ⟨%W, Ho⟩, Hp, Hst, Hbar, Hrow, ⟨Hx, ⟨%X0, %fd, %hfd, Hdst⟩, Hs1, Hp0, Hp1, Ht0, Htoks⟩, Htail⟩
  iapply (wp_devId c _ _)

  ihave ⟨%κ, #Hc⟩ := (rec_cp m K c 0) $$ HR
  ihave #Hr := (reached_cp m K c 0) $$ HR
  ihave Hx2 := (pointsTo_split_subset (Finset.subset_univ (chunkM 0).view.set)).1 $$ Hx
  icases Hx2 with ⟨Hsrc, Hxb⟩
  have hd : (0 : Dev nD) ∈ (Rd (F := F) m).duties (cpCell c 0) 0 := by
    rw [duties_cp m c 0 0 (by decide)]; exact Finset.mem_singleton_self _
  iapply (wp_copy_pointsTo 𝒱₀ ER (Rd m) (c : Thread nD τ) none (src := chunkM 0) (dst := slotM 0) (sem := .dma (cpSem 0))
    (q := fullShare) (fs := xc m c) (fd := fd) (r := 0) (d := 0) (κ := κ) hd () Ncp rfl (amount_cp m c 0 0 0) ?hpay) $$ [Hc Hsrc Hdst Ht0 Hr]
  case hpay =>
    show _ ⊢ (Rd m).payload (cpCell c 0) 0 0
    rw [payload_cp m c 0 0 0]
    unfold cpPay
    have hix : chunkIx 0 0 = 0 := rfl
    rw [hix]
    iintro ⟨Hd, Hs⟩
    isplitl [Hd]
    · ihave H := (owns_intro (c : Thread nD τ) (slotM 0) fullShare _) $$ Hd
      rw [View.read_write_univ]
      iexact H
    · iexact Hs
  · isplitr; · iexact Hc
    isplitl [Hsrc]; · iexact Hsrc
    isplitl [Hdst]; · iexact Hdst
    isplitl [Ht0]; · iexact Ht0
    iexact Hr
  iintro Hcr

  iapply (sig_step m K c 0 0 1 rfl rfl k0_dev1_eq (k0_dev1_lt c) (guard_iff 0 c) (W := W)) $$ HR Ho Hp
  iintro Ho Hp
  iapply (sig_step m K c 1 1 2 rfl rfl k0_dev2_eq (k0_dev2_lt c) (guard_iff 1 c) (W := W)) $$ HR Ho Hp
  iintro Ho Hp
  iapply (sig_step m K c 2 2 3 rfl rfl k0_dev3_eq (k0_dev3_lt c) (guard_iff 2 c) (W := W)) $$ HR Ho Hp
  iintro Ho Hp
  iapply (sig_step m K c 3 3 4 rfl rfl k0_dev4_eq (k0_dev4_lt c) (guard_iff 3 c) (W := W)) $$ HR Ho Hp
  iintro Ho Hp
  iapply (sig_step m K c 4 4 5 rfl rfl k0_dev5_eq (k0_dev5_lt c) (guard_iff 4 c) (W := W)) $$ HR Ho Hp
  iintro Ho Hp
  iapply (sig_step m K c 5 5 6 rfl rfl k0_dev6_eq (k0_dev6_lt c) (guard_iff 5 c) (W := W)) $$ HR Ho Hp
  iintro Ho Hp

  iapply (wp_pure_intro c _ _)
  isplitr; · ipureintro; exact ⟨rfl, rfl⟩
  isplitl [Ho]; · iexists W; iexact Ho
  isplitl [Hp]; · iexact Hp
  isplitl [Hst]; · iexact Hst
  isplitl [Hbar]; · iexact Hbar
  isplitl [Hrow]; · iexact Hrow
  isplitr [Htail]
  · unfold Cp1 xBut slotAny owns
    isplitl [Hxb]; · iexact Hxb
    isplitl [Hs1]; · iexact Hs1
    isplitl [Hp0]; · iexact Hp0
    isplitl [Hp1]; · iexact Hp1
    isplitl [Htoks]; · iexact Htoks
    iexact Hcr
  · iexact Htail

theorem part2_spec (K : Dev nD × Fin 35 → ℕ) (c : Dev nD) (v2 : BitVec 32) :
    iprop(Ctx m K ∗ SA c 6 (Cp1 m c)) ⊢ wp frame (wpE (defs₀ (F := F)) 𝒱₀ c none) Set.univ (part2 (F := F) c v2 barSems)
      (fun _ => SA c 16 (Cp1 m c)) := by
  unfold part2; rw [k0_part2_eq_skeleton]; unfold k0_part2_skel
  unfold SA Ctx owesE
  iintro ⟨⟨#HR, #HL⟩, ⟨%W, Ho⟩, Hp, Hrest⟩
  iapply (sig_step m K c 6 6 7 rfl rfl k0_dev7_eq (k0_dev7_lt c) (guard_iff 6 c) (W := W)) $$ HR Ho Hp
  iintro Ho Hp
  iapply (sig_step m K c 7 7 8 rfl rfl k0_dev8_eq (k0_dev8_lt c) (guard_iff 7 c) (W := W)) $$ HR Ho Hp
  iintro Ho Hp
  iapply (sig_step m K c 8 8 9 rfl rfl k0_dev9_eq (k0_dev9_lt c) (guard_iff 8 c) (W := W)) $$ HR Ho Hp
  iintro Ho Hp
  iapply (sig_step m K c 9 9 10 rfl rfl k0_dev10_eq (k0_dev10_lt c) (guard_iff 9 c) (W := W)) $$ HR Ho Hp
  iintro Ho Hp
  iapply (sig_step m K c 10 10 11 rfl rfl k0_dev11_eq (k0_dev11_lt c) (guard_iff 10 c) (W := W)) $$ HR Ho Hp
  iintro Ho Hp
  iapply (sig_step m K c 11 11 12 rfl rfl k0_dev12_eq (k0_dev12_lt c) (guard_iff 11 c) (W := W)) $$ HR Ho Hp
  iintro Ho Hp
  iapply (sig_step m K c 12 12 13 rfl rfl k0_dev13_eq (k0_dev13_lt c) (guard_iff 12 c) (W := W)) $$ HR Ho Hp
  iintro Ho Hp
  iapply (sig_step m K c 13 13 14 rfl rfl k0_dev14_eq (k0_dev14_lt c) (guard_iff 13 c) (W := W)) $$ HR Ho Hp
  iintro Ho Hp
  iapply (sig_step m K c 14 14 15 rfl rfl k0_dev15_eq (k0_dev15_lt c) (guard_iff 14 c) (W := W)) $$ HR Ho Hp
  iintro Ho Hp
  iapply (sig_step m K c 15 15 16 rfl rfl k0_dev16_eq (k0_dev16_lt c) (guard_iff 15 c) (W := W)) $$ HR Ho Hp
  iintro Ho Hp
  iapply (wp_pure_intro c _ _)
  isplitl [Ho]; · iexists W; iexact Ho
  isplitl [Hp]; · iexact Hp
  iexact Hrest

end Cert.KernelIdealProof

end
-- ==== Proof.KernelIdeal.Part36.lean ====
import proofs.«901075_g7700000000001076_dist_sum_ax0_shard0_i_m1536_n768_v7x_i16_bf16_1_alg».proof.Proof.KernelIdeal.Proto
import proofs.«901075_g7700000000001076_dist_sum_ax0_shard0_i_m1536_n768_v7x_i16_bf16_1_alg».proof.Proof.KernelIdeal.Sched
import proofs.«901075_g7700000000001076_dist_sum_ax0_shard0_i_m1536_n768_v7x_i16_bf16_1_alg».proof.Proof.KernelIdeal.Owed

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Part36

theorem cpSem_printed0 : ((SemArray.slice cc0_scratch1 (Rect.unit (s := S2) ![0] S1.size inb_S2_S1_0)).squeeze S_ squeezes_S1_S_).sem = cpSem 0 := by rfl
theorem cpSem_printed1 : ((SemArray.slice cc0_scratch1 (Rect.unit (s := S2) ![1] S1.size inb_S2_S1_1)).squeeze S_ squeezes_S1_S_).sem = cpSem 1 := by rfl

theorem slot_credit (s : Fin 2) : (slotM s).view.dmaCredit = Ncp := rfl

theorem slot_readAt (s : Fin 2) (g : (bufM.view.ty).Contents (Elt F)) :
    bufM.view.readAt (Elt F) (slotRect s).toLoadRect g = ld ((slotM s).view.read (Elt F) g) := by
  funext x
  unfold ld shapeCast
  rw [View.readAt_apply, View.read_apply, View.read_apply]
  simp only [Memref.view_squeeze, Memref.view_slice, View.emb_reshape, View.emb_slice, Function.Embedding.trans_apply,
    Equiv.coe_toEmbedding, Shape.reshapeEquiv_reshapeEquiv, Shape.reshapeEquiv_self]
  rfl

section Steps
variable (K : Dev nD × Fin 35 → ℕ) (c : Dev nD)

theorem ctx_reached0 (s : Fin 2) : Ctx m K ⊢ reached ER (cpCell c s) 0 := by
  unfold Ctx
  iintro ⟨#Hrec, -⟩
  iapply (reached_cp m K c s) $$ Hrec

theorem slotAt_any (s : Fin 2) (k' : Fin 8) : slotAt m c s k' ⊢ slotAny c s := by
  unfold slotAt slotAny
  iintro H
  iexists _
  iexact H

-- Waiting for a chunk's copy gives the slot at that chunk and the chunk's rows of `x` back; issuing one lends them; loading reads the chunk.
theorem wait_step (s : Fin 2) (r : ℕ) (hr : r < 4) (k' : Fin 8) (hk : chunkIx s r = k')
    {sem : DmaSem sig} (hsem : sem = cpSem s)
    {sp' : Space} {s' : Shape} {e' : EltTy} {src : Memref sig .tc sp' s' e'}
    {dst : Memref sig .tc .vmem S192x768 .f32} (hcr : dst.view.dmaCredit = Ncp)
    {hs : src.view.WordExact} {hd : dst.view.WordExact}
    {α : Type} {k : PUnit → Prog (TpuEff nD τ sig (Elt F) Λ₀ .tc) α} {Q : α → sProp 𝕄} :
    iprop(Ctx m K ∗ owesE c (owedAt c 16 0) ∗ cred (tallyAt (cpCell c s) () Ncp) ∗ atPos ER (cpCell c s) r ∅ 0 ∗ xBut m c k')
      ⊢ iprop(((owesE c (owedAt c 16 0) ∗ atPos ER (cpCell c s) (r + 1) ∅ 0 ∗ reached ER (cpCell c s) (r + 1)
              ∗ slotAt m c s k' ∗ xAll m c)
            -∗ wp frame (wpE (defs₀ (F := F)) 𝒱₀ c none) Set.univ (k ⟨⟩) Q)
          -∗ wp frame (wpE (defs₀ (F := F)) 𝒱₀ c none) Set.univ (.op (.waitDma2 sem src dst hs hd) k) Q) := by
  subst hsem hk
  unfold Ctx owesE xBut xAll slotAt
  iintro ⟨⟨#Hrec, #Hlev⟩, ⟨%W, HO⟩, Hc, Hat, Hx⟩ Hk
  ihave H := (rec_cp m K c s) $$ Hrec
  icases H with ⟨%κ, #Hκ⟩
  ihave HM := (mayWait_cp (F := F) c s 16 0) $$ Hlev
  have h := wp_wait_rest_token (Γ := .empty) (defs := defs₀ (F := F)) 𝒱₀ ER (Rd m) (c : Thread nD τ) none (κ := κ) (Es := Set.univ)
      (Q := Q) (k := k) (w := .waitDma2 (cpSem s) src dst hs hd)
      (wpE_waitDma2_eq 𝒱₀ (c : Thread nD τ) none Set.univ) (Set.mem_univ _) () (O := owedAt c 16 0) (W := W) (R := r) (T := ∅) (m := 0)
      (by rw [expect_cp m c s r hr, Nat.zero_add, hcr])
  rw [rest_cp m c s r hr, hcr] at h
  unfold cpPay at h
  iapply h $$ [Hc HO HM Hat]
  · isplitr; · iexact Hκ
    isplitl [Hc]; · iexact Hc
    isplitl [HO]; · iexact HO
    isplitl [HM]; · iexact HM
    iexact Hat
  iintro ⟨HO, Hat, #Hr, Hslot, Hch⟩
  iapply Hk
  isplitl [HO]; · iexists _; iexact HO
  isplitl [Hat]; · iexact Hat
  isplitr; · iexact Hr
  isplitl [Hslot]; · iexact Hslot
  iapply (pointsTo_split_subset (Finset.subset_univ (chunkM (chunkIx s r)).view.set)).2
  isplitl [Hch]; · iexact Hch
  iexact Hx

theorem enq_step (s : Fin 2) (r : ℕ) (hr : r < 4) (k' : Fin 8) (hk : chunkIx s r = k')
    {sem : DmaSem sig} (hsem : sem = cpSem s)
    {src : Memref sig .tc .hbm S192x768 .f32} (hsrc : src = chunkM k')
    {dst : Memref sig .tc .vmem S192x768 .f32} (hdst : dst = slotM s)
    {hs : src.view.WordExact} {hd : dst.view.WordExact}
    {ht : DmaTarget.Typed .hbm (.dma sem) (.here dst : DmaTarget nD τ sig (.tc : Proc τ) .vmem S192x768 .f32)}
    {α : Type} {k : PUnit → Prog (TpuEff nD τ sig (Elt F) Λ₀ .tc) α} {Q : α → sProp 𝕄} :
    iprop(Ctx m K ∗ reached ER (cpCell c s) r ∗ dutyTok ER (cpCell c s) r 0 ∗ slotAny c s ∗ xAll m c)
      ⊢ iprop(((cred (tallyAt (cpCell c s) () Ncp) ∗ xBut m c k')
            -∗ wp frame (wpE (defs₀ (F := F)) 𝒱₀ c none) Set.univ (k ⟨⟩) Q)
          -∗ wp frame (wpE (defs₀ (F := F)) 𝒱₀ c none) Set.univ (.op (.enqueueDma src (.here dst) (.dma sem) hs hd ht) k) Q) := by
  subst hsem hk hsrc hdst
  unfold Ctx slotAny xAll xBut owns
  iintro ⟨⟨#Hrec, #Hlev⟩, #Hr, Htok, ⟨%X, %fd, -, Hd⟩, Hx⟩ Hk
  ihave H := (rec_cp m K c s) $$ Hrec
  icases H with ⟨%κ, #Hκ⟩
  ihave Hx' := (pointsTo_split_subset (Finset.subset_univ (chunkM (chunkIx s r)).view.set)).1 $$ Hx
  icases Hx' with ⟨Hsrc, Hrest⟩
  have h := wp_copy_pointsTo (Γ := .empty) (defs := defs₀ (F := F)) 𝒱₀ ER (Rd m) (c : Thread nD τ) none (Es := Set.univ) (Q := Q) (k := k)
      (src := chunkM (chunkIx s r)) (dst := slotM s) (sem := .dma (cpSem s)) (hsrc := hs) (hdst := hd) (hsem := ht)
      (q := fullShare) (fs := xc m c) (fd := fd) (r := r) (d := 0) (κ := κ)
      (by rw [duties_cp m c s r hr]; exact Finset.mem_singleton_self _) () Ncp rfl (amount_cp m c s r 0)
      (by
        rw [payload_cp]; unfold cpPay chunkR
        have h0 := owns_intro (Val := Elt F) (Ix := Unit) (Name := ℕ) (U := UU) (Lvl := ℕ) (c : Thread nD τ) (slotM s) fullShare
          ((slotM s).view.write (Elt F) fd ((chunkM (chunkIx s r)).view.read (Elt F) (xc m c)) Finset.univ)
        rw [View.read_write_univ] at h0
        exact sep_mono_left h0)
  iapply h $$ [Hsrc Hd Htok]
  · isplitr; · iexact Hκ
    isplitl [Hsrc]; · iexact Hsrc
    isplitl [Hd]; · iexact Hd
    isplitl [Htok]; · iexact Htok
    iexact Hr
  iintro Hc
  iapply Hk
  isplitl [Hc]; · iexact Hc
  iexact Hrest

theorem load_step (s : Fin 2) (k' : Fin 8)
    {rect : Rect S2x192x768} (hrect : rect = slotRect s)
    {hl : bufM.view.LoadsAt rect.toLoadRect}
    {α : Type} {k : (rect.toLoadRect.shape.Idx → Elt F .f32) → Prog (TpuEff nD τ sig (Elt F) Λ₀ .tc) α} {Q : α → sProp 𝕄} :
    slotAt m c s k'
      ⊢ iprop((slotAt m c s k' -∗ wp frame (wpE (defs₀ (F := F)) 𝒱₀ c none) Set.univ (k (hrect ▸ ld (chunkR m c k'))) Q)
          -∗ wp frame (wpE (defs₀ (F := F)) 𝒱₀ c none) Set.univ (.op (.load bufM rect.toLoadRect hl) k) Q) := by
  subst hrect
  unfold slotAt owns
  iintro ⟨%f, %hf, H⟩ Hk
  have hS : bufM.view.setOn (slotRect s).toLoadRect.set ⊆ (slotM s).view.set := by
    simp only [Memref.view_squeeze, Memref.view_slice, View.set_reshape, View.set_slice]
    exact subset_rfl
  have h := wp_load (Γ := .empty) (defs := defs₀ (F := F)) 𝒱₀ (c : Thread nD τ) none Set.univ (Q := Q) (m := bufM) (r := (slotRect s).toLoadRect) (hl := hl) (k := k)
      (S := (slotM s).view.set) (q := fullShare) (f := f) hS
  rw [slot_readAt, hf] at h
  iapply h $$ H
  iintro H
  iapply Hk
  iexists f; isplitr; · ipureintro; exact hf
  iexact H

theorem reached_of_atPos (s : Fin 2) (R : ℕ) :
    iprop(Ctx m K ∗ atPos ER (cpCell c s) R ∅ 0)
      ⊢ iprop(|={Set.univ}=> (atPos ER (cpCell c s) R ∅ 0 ∗ reached ER (cpCell c s) R)) := by
  have hstep : ∀ v, iprop(roundState ER (Rd m) (cpCell c s) v ∗ atPos ER (cpCell c s) R ∅ 0)
      ⊢ iprop(|==> (roundState ER (Rd m) (cpCell c s) v ∗ (atPos ER (cpCell c s) R ∅ 0 ∗ reached ER (cpCell c s) R))) := by
    intro v
    unfold roundState
    iintro ⟨Hst, Hat⟩
    icases Hst with ⟨%R₀, %T₀, %m₀, %A, %L, %P, Hauth, Hrest⟩
    icombine Hauth Hat gives %hag
    obtain ⟨rfl, rfl, rfl⟩ := hag
    imod (roundAuth_witness ER) $$ Hauth with ⟨Hauth, Hreached⟩
    imodintro
    isplitr [Hat Hreached]
    · iexists _, _, _, A, L, P
      isplitl [Hauth]; · iexact Hauth
      iexact Hrest
    isplitl [Hat]; · iexact Hat
    iexact Hreached
  unfold Ctx
  iintro ⟨⟨#Hrec, -⟩, Hat⟩
  ihave H := (rec_cp m K c s) $$ Hrec
  icases H with ⟨%κ, #Hκ⟩
  iapply (fupd_roundState ER (Rd m) (Set.mem_univ κ) (closed_atPos_false ER (Rd m)) (dormant_atPos_false ER (Rd m)) hstep)
  isplitr; · iexact Hκ
  iexact Hat

end Steps

end Part36

open Part36
theorem part3_spec (K : Dev nD × Fin 35 → ℕ) (c : Dev nD) :
    iprop(Ctx m K ∗ SA c 16 (Cp1 m c)) ⊢ wp frame (wpE (defs₀ (F := F)) 𝒱₀ c none) Set.univ (part3 (F := F))
      (fun v => iprop(⌜v = acc2 m c⌝ ∗ SA c 16 (Cp3 m c))) := by
  rw [show part3 (F := F) = _ from congrFun (congrFun (congrFun (congrFun (congrFun (congrFun (congrFun (congrFun (congrFun (congrFun (congrFun (k0_part3_eq_skeleton (F := F)) _) _) _) _) _) _) _) _) _) _) _]
  unfold k0_part3_skel
  simp only [Prog.bind_lift, Prog.pure_eq_ret]
  unfold SA Cp1 Cp3
  rw [show bigSepL [1, 2, 3, 4, 5, 6, 7] (cpTok (F := F) c)
      = iprop(cpTok c 1 ∗ cpTok c 2 ∗ bigSepL [3, 4, 5, 6, 7] (cpTok c)) from rfl]
  iintro ⟨#HC, HO, Hsig, Hst, Hbar, Hrow, ⟨Hx, Hs1, Hat0, Hat1, ⟨Ht1, Ht2, Hts⟩, Hc0⟩, Htail⟩

  iapply (wait_step m K c 0 0 (by decide) 0 rfl cpSem_printed0 (slot_credit 0)) $$ [HO Hc0 Hat0 Hx]
  · iframe; iexact HC
  iintro ⟨HO, Hat0, #Hr01, Hs0, Hx⟩

  ihave #Hr10 := (ctx_reached0 m K c 1) $$ HC
  iapply (enq_step m K c 1 0 (by decide) 1 rfl cpSem_printed1 rfl rfl) $$ [Ht1 Hs1 Hx]
  · iframe; isplitr; · iexact HC
    isplitr; · iexact Hr10
    iexact Ht1
  iintro ⟨Hc1, Hx⟩

  iapply (load_step m c 0 0 rfl) $$ Hs0
  iintro Hs0

  iapply (wait_step m K c 1 0 (by decide) 1 rfl cpSem_printed1 (slot_credit 1)) $$ [HO Hc1 Hat1 Hx]
  · iframe; iexact HC
  iintro ⟨HO, Hat1, #Hr11, Hs1, Hx⟩

  ihave Hs0 := (slotAt_any m c 0 0) $$ Hs0
  iapply (enq_step m K c 0 1 (by decide) 2 rfl cpSem_printed0 rfl rfl) $$ [Ht2 Hs0 Hx]
  · iframe; isplitr; · iexact HC
    isplitr; · iexact Hr01
    iexact Ht2
  iintro ⟨Hc0, Hx⟩

  iapply (load_step m c 1 1 rfl) $$ Hs1
  iintro Hs1
  ihave Hs1 := (slotAt_any m c 1 1) $$ Hs1
  rw [wp_ret]; imodintro
  isplitr; · ipureintro; rfl
  iframe

theorem part4_spec (K : Dev nD × Fin 35 → ℕ) (c : Dev nD) :
    iprop(Ctx m K ∗ SA c 16 (Cp3 m c)) ⊢ wp frame (wpE (defs₀ (F := F)) 𝒱₀ c none) Set.univ (part4 (F := F) (acc2 m c))
      (fun v => iprop(⌜v = acc3 m c⌝ ∗ SA c 16 (Cp4 m c))) := by
  rw [show part4 (F := F) (acc2 m c) = _ from congrFun (congrFun (congrFun (congrFun (congrFun (congrFun (congrFun (congrFun (congrFun (congrFun (congrFun (congrFun (k0_part4_eq_skeleton (F := F)) _) _) _) _) _) _) _) _) _) _) _) _]
  unfold k0_part4_skel
  simp only [Prog.bind_lift, Prog.pure_eq_ret]
  unfold SA Cp3 Cp4
  rw [show bigSepL [3, 4, 5, 6, 7] (cpTok (F := F) c)
      = iprop(cpTok c 3 ∗ cpTok c 4 ∗ bigSepL [5, 6, 7] (cpTok c)) from rfl]
  iintro ⟨#HC, HO, Hsig, Hst, Hbar, Hrow, ⟨Hx, Hs1, Hat0, Hat1, ⟨Ht3, Ht4, Hts⟩, Hc0⟩, Htail⟩

  imod (reached_of_atPos m K c 1 1) $$ [Hat1] with ⟨Hat1, #Hr11⟩
  · isplitr; · iexact HC
    iexact Hat1

  iapply (wait_step m K c 0 1 (by decide) 2 rfl cpSem_printed0 (slot_credit 0)) $$ [HO Hc0 Hat0 Hx]
  · iframe; iexact HC
  iintro ⟨HO, Hat0, #Hr02, Hs0, Hx⟩

  iapply (enq_step m K c 1 1 (by decide) 3 rfl cpSem_printed1 rfl rfl) $$ [Ht3 Hs1 Hx]
  · iframe; isplitr; · iexact HC
    isplitr; · iexact Hr11
    iexact Ht3
  iintro ⟨Hc1, Hx⟩

  iapply (load_step m c 0 2 rfl) $$ Hs0
  iintro Hs0

  iapply (wait_step m K c 1 1 (by decide) 3 rfl cpSem_printed1 (slot_credit 1)) $$ [HO Hc1 Hat1 Hx]
  · iframe; iexact HC
  iintro ⟨HO, Hat1, #Hr12, Hs1, Hx⟩

  ihave Hs0 := (slotAt_any m c 0 2) $$ Hs0
  iapply (enq_step m K c 0 2 (by decide) 4 rfl cpSem_printed0 rfl rfl) $$ [Ht4 Hs0 Hx]
  · iframe; isplitr; · iexact HC
    isplitr; · iexact Hr02
    iexact Ht4
  iintro ⟨Hc0, Hx⟩
  rw [wp_ret]; imodintro
  isplitr; · ipureintro; rfl
  iframe

theorem part5_spec (K : Dev nD × Fin 35 → ℕ) (c : Dev nD) :
    iprop(Ctx m K ∗ SA c 16 (Cp4 m c)) ⊢ wp frame (wpE (defs₀ (F := F)) 𝒱₀ c none) Set.univ (part5 (F := F) (acc3 m c))
      (fun v => iprop(⌜v = acc5 m c⌝ ∗ SA c 16 (Cp5 m c))) := by
  rw [show part5 (F := F) (acc3 m c) = _ from congrFun (congrFun (congrFun (congrFun (congrFun (congrFun (congrFun (congrFun (congrFun (congrFun (congrFun (congrFun (k0_part5_eq_skeleton (F := F)) _) _) _) _) _) _) _) _) _) _) _) _]
  unfold k0_part5_skel
  simp only [Prog.bind_lift, Prog.pure_eq_ret]
  unfold SA Cp4 Cp5
  rw [show bigSepL [5, 6, 7] (cpTok (F := F) c) = iprop(cpTok c 5 ∗ bigSepL [6, 7] (cpTok c)) from rfl]
  iintro ⟨#HC, HO, Hsig, Hst, Hbar, Hrow, ⟨Hx, Hs1, Hat0, Hat1, ⟨Ht5, Hts⟩, Hc0⟩, Htail⟩

  imod (reached_of_atPos m K c 1 2) $$ [Hat1] with ⟨Hat1, #Hr12⟩
  · isplitr; · iexact HC
    iexact Hat1

  iapply (load_step m c 1 3 rfl) $$ Hs1
  iintro Hs1

  iapply (wait_step m K c 0 2 (by decide) 4 rfl cpSem_printed0 (slot_credit 0)) $$ [HO Hc0 Hat0 Hx]
  · iframe; iexact HC
  iintro ⟨HO, Hat0, #Hr03, Hs0, Hx⟩

  ihave Hs1 := (slotAt_any m c 1 3) $$ Hs1
  iapply (enq_step m K c 1 2 (by decide) 5 rfl cpSem_printed1 rfl rfl) $$ [Ht5 Hs1 Hx]
  · iframe; isplitr; · iexact HC
    isplitr; · iexact Hr12
    iexact Ht5
  iintro ⟨Hc1, Hx⟩

  iapply (load_step m c 0 4 rfl) $$ Hs0
  iintro Hs0

  iapply (wait_step m K c 1 2 (by decide) 5 rfl cpSem_printed1 (slot_credit 1)) $$ [HO Hc1 Hat1 Hx]
  · iframe; iexact HC
  iintro ⟨HO, Hat1, #Hr13, Hs1, Hx⟩
  ihave Hs0 := (slotAt_any m c 0 4) $$ Hs0
  rw [wp_ret]; imodintro
  isplitr; · ipureintro; rfl
  iframe

theorem part6_spec (K : Dev nD × Fin 35 → ℕ) (c : Dev nD) :
    iprop(Ctx m K ∗ SA c 16 (Cp5 m c)) ⊢ wp frame (wpE (defs₀ (F := F)) 𝒱₀ c none) Set.univ (part6 (F := F) (acc5 m c))
      (fun v => iprop(⌜v = acc7 m c⌝ ∗ SA c 16 (Cp6 m c))) := by
  rw [show part6 (F := F) (acc5 m c) = _ from congrFun (congrFun (congrFun (congrFun (congrFun (congrFun (congrFun (congrFun (congrFun (congrFun (congrFun (congrFun (k0_part6_eq_skeleton (F := F)) _) _) _) _) _) _) _) _) _) _) _) _]
  unfold k0_part6_skel
  simp only [Prog.bind_lift, Prog.pure_eq_ret]
  unfold SA Cp5 Cp6
  rw [show bigSepL [6, 7] (cpTok (F := F) c) = iprop(cpTok c 6 ∗ cpTok c 7) from rfl]
  iintro ⟨#HC, HO, Hsig, Hst, Hbar, Hrow, ⟨Hx, Hs0, Hs1, Hat0, Hat1, ⟨Ht6, Ht7⟩⟩, Htail⟩

  imod (reached_of_atPos m K c 0 3) $$ [Hat0] with ⟨Hat0, #Hr03⟩
  · isplitr; · iexact HC
    iexact Hat0
  imod (reached_of_atPos m K c 1 3) $$ [Hat1] with ⟨Hat1, #Hr13⟩
  · isplitr; · iexact HC
    iexact Hat1

  iapply (enq_step m K c 0 3 (by decide) 6 rfl cpSem_printed0 rfl rfl) $$ [Ht6 Hs0 Hx]
  · iframe; isplitr; · iexact HC
    isplitr; · iexact Hr03
    iexact Ht6
  iintro ⟨Hc0, Hx⟩

  iapply (load_step m c 1 5 rfl) $$ Hs1
  iintro Hs1

  iapply (wait_step m K c 0 3 (by decide) 6 rfl cpSem_printed0 (slot_credit 0)) $$ [HO Hc0 Hat0 Hx]
  · iframe; iexact HC
  iintro ⟨HO, Hat0, #Hr04, Hs0, Hx⟩

  ihave Hs1 := (slotAt_any m c 1 5) $$ Hs1
  iapply (enq_step m K c 1 3 (by decide) 7 rfl cpSem_printed1 rfl rfl) $$ [Ht7 Hs1 Hx]
  · iframe; isplitr; · iexact HC
    isplitr; · iexact Hr13
    iexact Ht7
  iintro ⟨Hc1, Hx⟩

  iapply (load_step m c 0 6 rfl) $$ Hs0
  iintro Hs0

  iapply (wait_step m K c 1 3 (by decide) 7 rfl cpSem_printed1 (slot_credit 1)) $$ [HO Hc1 Hat1 Hx]
  · iframe; iexact HC
  iintro ⟨HO, Hat1, #Hr14, Hs1, Hx⟩
  ihave Hs0 := (slotAt_any m c 0 6) $$ Hs0
  rw [wp_ret]; imodintro
  isplitr; · ipureintro; rfl
  iframe

end Cert.KernelIdealProof

end
-- ==== Proof.KernelIdeal.Part7.lean ====
import proofs.«901075_g7700000000001076_dist_sum_ax0_shard0_i_m1536_n768_v7x_i16_bf16_1_alg».proof.Proof.KernelIdeal.Proto
import proofs.«901075_g7700000000001076_dist_sum_ax0_shard0_i_m1536_n768_v7x_i16_bf16_1_alg».proof.Proof.KernelIdeal.Blocks

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Part7

theorem slot1_readAt (g : (cc0_scratch0 : Ref sig .tc).ty.Contents (Elt F)) :
    bufM.view.readAt (Elt F) (slotRect 1).toLoadRect g = ld ((slotM 1).view.read (Elt F) g) := by
  funext j
  unfold ld shapeCast
  rw [View.readAt_apply, View.read_apply, View.read_apply]
  refine congrArg (_root_.cast _) (congrArg g ?_)
  show bufM.view.emb ((slotRect 1).idx j)
    = bufM.view.emb ((slotRect 1).emb (Shape.reshapeEquiv _ (Shape.reshapeEquiv _ j)))
  rw [Shape.reshapeEquiv_reshapeEquiv, Shape.reshapeEquiv_self]; rfl

theorem rect_own (c : Dev nD) : Rect.unit (s := S16x768) (k0_off1 c) S1x768.size (k0_off1_inb c) = rowRect c :=
  Rect.unit_congr (k0_off1_eq c) _ _

theorem set_own (c : Dev nD) :
    commM.view.setOn (Rect.unit (s := S16x768) (k0_off1 c) S1x768.size (k0_off1_inb c)).toLoadRect.set = (rowM c).view.set := by
  rw [rect_own]; exact (View.set_slice (v := commM.view) (rowRect c)).symm

theorem set_slot1 :
    bufM.view.setOn (Rect.unit (s := S2x192x768) ![1, 0, 0] S1x192x768.size inb_S2x192x768_S1x192x768_1_0_0).toLoadRect.set
      = (slotM 1).view.set :=
  ((View.set_reshape (v := bufM.view.slice (slotRect 1)) (s' := S192x768) squeezes_S1x192x768_S192x768.numel_eq).trans
    (View.set_slice (v := bufM.view) (slotRect 1))).symm

theorem set_own_store (c : Dev nD) :
    (commM.access (Rect.unit (s := S16x768) (k0_off1 c) S1x768.size (k0_off1_inb c))).setOn Finset.univ = (rowM c).view.set := by
  rw [rect_own]; rfl

theorem write_own (c : Dev nD) (off : Fin 2 → Nat) (hoff : off = ![c.val, 0])
    (inb : ∀ a, off a + S1x768.size a ≤ S16x768.size a) (f : Buf (Elt F) ((c : Thread nD τ).loc cc0_scratch2))
    (w : FVec F S1x768 .f32) :
    (commM.access (Rect.unit (s := S16x768) off S1x768.size inb)).write (Elt F) f w Finset.univ
      = (rowM c).view.write (Elt F) f w Finset.univ := by
  subst hoff; rfl

-- The device's own row, once stored, reads as its row of the gathered table.
theorem own_row_written (c : Dev nD) (f : Buf (Elt F) ((c : Thread nD τ).loc cc0_scratch2)) :
    ∀ i ∈ (rowM c).view.set, (rowM c).view.write (Elt F) f (accV m c) Finset.univ i = commBuf m c i := by
  intro i hi
  obtain ⟨y, -, rfl⟩ := Finset.mem_map.mp hi
  rw [View.write_emb_of_mem _ _ (Finset.mem_univ _)]
  obtain ⟨a, b, rfl⟩ : ∃ a b, y = ValueIdx.ix2 a b := ⟨y 0, y 1, ValueIdx.eq_ix2 y⟩
  obtain rfl : a = 0 := Subsingleton.elim _ _
  have h0 : (show Fin 16 from (rowM c).view.emb (ValueIdx.ix2 0 b) 0) = c := Fin.ext (by show c.val + 1 * 0 = c.val; omega)
  have h1 : (show Fin 768 from (rowM c).view.emb (ValueIdx.ix2 0 b) 1) = b := Fin.ext (by show 0 + 1 * b.val = b.val; omega)
  show _root_.cast _ (accV m c (ValueIdx.ix2 0 b)) = accV m _ (ValueIdx.ix2 0 _)
  rw [h0, h1]; rfl

theorem own_row_canon (c : Dev nD) (f0 : Buf (Elt F) ((c : Thread nD τ).loc cc0_scratch2)) (w : FVec F S1x768 .f32)
    (hw : w = accV m c) :
    ((((commM.access (Rect.unit (s := S16x768) (k0_off1 c) S1x768.size (k0_off1_inb c))).loc (c : Thread nD τ))
        ↦[(rowM c).view.set]{fullShare}
        ((commM.access (Rect.unit (s := S16x768) (k0_off1 c) S1x768.size (k0_off1_inb c))).write (Elt F) f0 w Finset.univ) : sProp 𝕄))
      ⊢ (((c : Thread nD τ).loc cc0_scratch2) ↦[(rowM c).view.set]{fullShare} commBuf m c) := by
  subst hw
  rw [write_own c (k0_off1 c) (k0_off1_eq c) (k0_off1_inb c)]
  exact Entails.of_eq (pointsTo_congr (own_row_written m c f0))

-- The own row is cut into sixteen shares: one lent to each copy towards a peer.
theorem own_row_shares (c : Dev nD) :
    ((((c : Thread nD τ).loc cc0_scratch2) ↦[(rowM c).view.set]{fullShare} commBuf m c : sProp 𝕄))
      ⊢ iprop(rowRem m c ∗ bigSep (Finset.univ.erase c) (fun t => sendPay m c t)) := by
  unfold rowRem sendPay
  refine (Transfers.pointsTo_toks_split fullShare 16).trans ?_
  rw [bigSep_univ_at _ c]
  iintro ⟨Hd, Hc, Hs⟩
  isplitl [Hd Hc]
  · isplitl [Hd]
    · iexact Hd
    · iexact Hc
  · iexact Hs

theorem sendRes_one (c t : Dev nD) :
    iprop((dutyTok ER (sendCell c t) 0 0 ∗ dutyTok ER (recvCell t c) 0 0) ∗ barPay (F := F) c t ∗ sendPay m c t)
      ⊢ sendRes m c t := by
  unfold sendRes barPay rowAny
  iintro ⟨⟨Ht1, Ht2⟩, ⟨Hr, -⟩, Hs⟩
  isplitl [Ht1]; · iexact Ht1
  isplitl [Ht2]; · iexact Ht2
  isplitl [Hr]; · iexact Hr
  iexact Hs

theorem sendRes_zip (c : Dev nD) :
    iprop(sendToks (F := F) c ∗ bigSep (Finset.univ.erase c) (fun d => barPay (F := F) c d)
        ∗ bigSep (Finset.univ.erase c) (fun t => sendPay m c t))
      ⊢ peersFrom c 0 (sendRes m c) := by
  unfold sendToks
  rw [peersFrom_0, peersFrom_0, ← bigSep_sep', ← bigSep_sep']
  exact bigSep_mono fun t _ => sendRes_one m c t

theorem cp7_intro (c : Dev nD) (f1 : Buf (Elt F) ((c : Thread nD τ).loc cc0_scratch0)) :
    iprop(xAll m c ∗ slotAny (F := F) c 0 ∗ (((slotM 1).view.loc (c : Thread nD τ)) ↦[(slotM 1).view.set]{fullShare} f1)
        ∗ atPos ER (cpCell c 0) 4 ∅ 0 ∗ atPos ER (cpCell c 1) 4 ∅ 0)
      ⊢ Cp7 m c := by
  unfold Cp7
  iintro ⟨Hx, Hs0, Hs1, Hp0, Hp1⟩
  isplitl [Hx]; · iexact Hx
  isplitl [Hs0]; · iexact Hs0
  isplitl [Hs1]
  · unfold slotAny
    iexists _
    iapply (owns_intro (c : Thread nD τ) (slotM 1) fullShare f1) $$ Hs1
  isplitl [Hp0]; · iexact Hp0
  iexact Hp1

theorem sb0_intro (c : Dev nD) (W : Waits sig Unit) :
    iprop(owes (c : Thread nD τ) (owedAt c 16 0) W ∗ peersFrom c 0 (sendRes m c) ∗ atPos ER (barCell c) 1 ∅ 0
        ∗ rowRem m c ∗ Cp7 m c ∗ Tail (F := F) c)
      ⊢ SB m c 0 := by
  unfold SB owesE
  rw [peersUpto_0]
  iintro ⟨Ho, Hf, Hb, Hr, Hc, Ht⟩
  isplitl [Ho]; · iexists W; iexact Ho
  isplitl [Hf]; · iexact Hf
  isplitr; · iempintro
  isplitl [Hb]; · iexact Hb
  isplitl [Hr]; · iexact Hr
  isplitl [Hc]; · iexact Hc
  iexact Ht

end Part7

open Part7 in

theorem part7_spec (K : Dev nD × Fin 35 → ℕ) (c : Dev nD) (v2 : BitVec 32) :
    iprop(Ctx m K ∗ SA c 16 (Cp6 m c)) ⊢ wp frame (wpE (defs₀ (F := F)) 𝒱₀ c none) Set.univ (part7 (F := F) c v2 barSems (acc7 m c))
      (fun _ => SB m c 7) := by
  unfold part7
  rw [k0_part7_eq_skeleton]
  unfold k0_part7_skel
  unfold SA Cp6
  rw [peersFrom_16]
  iintro ⟨#HC, Howes, Hsig, Htoks, Hbar, Hrow, ⟨Hx, Hs0, Hs1, Hp0, Hp1⟩, Htail⟩
  ihave #Hrec := (Ctx_records m K) $$ HC
  ihave #Hlev := (Ctx_levAts m K) $$ HC

  unfold slotAt owns
  icases Hs1 with ⟨%f1, %hf1, Hs1⟩
  iapply (wp_load 𝒱₀ (c : Thread nD τ) none Set.univ (m := bufM) (S := (slotM 1).view.set) (q := fullShare) (f := f1)
    (le_of_eq set_slot1)) $$ [Hs1]
  · iexact Hs1
  iintro Hs1

  unfold rowAny owns
  icases Hrow with ⟨%X0, %f0, %hf0, Hrow⟩
  iapply (wp_load 𝒱₀ (c : Thread nD τ) none Set.univ (m := commM) (S := (rowM c).view.set) (q := fullShare) (f := f0)
    (le_of_eq (set_own c))) $$ [Hrow]
  · iexact Hrow
  iintro Hrow
  iapply (wp_store 𝒱₀ (c : Thread nD τ) none Set.univ (m := commM)
    (r := Rect.unit (s := S16x768) (k0_off1 c) S1x768.size (k0_off1_inb c)) (S := (rowM c).view.set) (f := f0)
    (le_of_eq (set_own_store c))) $$ [Hrow]
  · iexact Hrow
  iintro Hrow

  have hw : k0_pay6 (acc7 m c) (bufM.view.readAt (Elt F)
      (Rect.unit (s := S2x192x768) ![1, 0, 0] S1x192x768.size inb_S2x192x768_S1x192x768_1_0_0).toLoadRect f1) = accV m c := by
    rw [accV_eq, ← hf1]; exact congrArg _ (slot1_readAt f1)
  ihave Hrow := (own_row_canon m c f0 _ hw) $$ Hrow

  ihave Hb := (rec_bar m K c) $$ Hrec
  icases Hb with ⟨%κ, #Hbinv⟩
  ihave Hmw := (mayWait_bar (F := F) c 0) $$ Hlev
  unfold barOwn owesE
  icases Hbar with ⟨Hbat, Hbcred⟩
  icases Howes with ⟨%W, Howes⟩
  iapply (Rounds.wp_wait_rest_token 𝒱₀ ER (Rd m) (c : Thread nD τ) none (wpE_semWait_eq 𝒱₀ (c : Thread nD τ) none Set.univ)
    (Set.mem_univ κ) () (R := 0) (T := ∅) (m := 0) (k' := 15) (by rw [expect_bar])) $$ [Hbcred Howes Hbat Hmw]
  · isplitr; · iexact Hbinv
    isplitl [Hbcred]; · iexact Hbcred
    isplitl [Howes]; · iexact Howes
    isplitl [Hmw]; · iexact Hmw
    iexact Hbat
  iintro ⟨Howes, Hbat, #Hbr, Hpay⟩
  ihave Hpay := (Entails.of_eq (rest_bar m c)) $$ Hpay

  ihave Hsh := (own_row_shares m c) $$ Hrow
  icases Hsh with ⟨Hrem, Hshares⟩
  ihave Hfrom := (sendRes_zip m c) $$ [Htoks Hpay Hshares]
  · isplitl [Htoks]; · iexact Htoks
    isplitl [Hpay]; · iexact Hpay
    iexact Hshares
  ihave Hcp := (cp7_intro m c f1) $$ [Hx Hs0 Hs1 Hp0 Hp1]
  · isplitl [Hx]; · iexact Hx
    isplitl [Hs0]; · iexact Hs0
    isplitl [Hs1]; · iexact Hs1
    isplitl [Hp0]; · iexact Hp0
    iexact Hp1
  ihave HSB := (sb0_intro m c _) $$ [Howes Hfrom Hbat Hrem Hcp Htail]
  · isplitl [Howes]; · iexact Howes
    isplitl [Hfrom]; · iexact Hfrom
    isplitl [Hbat]; · iexact Hbat
    isplitl [Hrem]; · iexact Hrem
    isplitl [Hcp]; · iexact Hcp
    iexact Htail

  iapply (copy_step m K c 0 0 rfl k0_dev17_eq (k0_dev17_lt c) (k0_off3_eq c) (k0_off3_inb c) (k0_off2_eq c) (k0_off2_inb c) inb_S16_S1_0 (guard_iff 0 c))
  isplitr; · iexact HC
  isplitl [HSB]; · iexact HSB
  iintro HSB

  iapply (copy_step m K c 1 1 rfl k0_dev18_eq (k0_dev18_lt c) (k0_off5_eq c) (k0_off5_inb c) (k0_off4_eq c) (k0_off4_inb c) inb_S16_S1_1 (guard_iff 1 c))
  isplitr; · iexact HC
  isplitl [HSB]; · iexact HSB
  iintro HSB

  iapply (copy_step m K c 2 2 rfl k0_dev19_eq (k0_dev19_lt c) (k0_off7_eq c) (k0_off7_inb c) (k0_off6_eq c) (k0_off6_inb c) inb_S16_S1_2 (guard_iff 2 c))
  isplitr; · iexact HC
  isplitl [HSB]; · iexact HSB
  iintro HSB

  iapply (copy_step m K c 3 3 rfl k0_dev20_eq (k0_dev20_lt c) (k0_off9_eq c) (k0_off9_inb c) (k0_off8_eq c) (k0_off8_inb c) inb_S16_S1_3 (guard_iff 3 c))
  isplitr; · iexact HC
  isplitl [HSB]; · iexact HSB
  iintro HSB

  iapply (copy_step m K c 4 4 rfl k0_dev21_eq (k0_dev21_lt c) (k0_off11_eq c) (k0_off11_inb c) (k0_off10_eq c) (k0_off10_inb c) inb_S16_S1_4 (guard_iff 4 c))
  isplitr; · iexact HC
  isplitl [HSB]; · iexact HSB
  iintro HSB

  iapply (copy_step m K c 5 5 rfl k0_dev22_eq (k0_dev22_lt c) (k0_off13_eq c) (k0_off13_inb c) (k0_off12_eq c) (k0_off12_inb c) inb_S16_S1_5 (guard_iff 5 c))
  isplitr; · iexact HC
  isplitl [HSB]; · iexact HSB
  iintro HSB

  iapply (copy_step m K c 6 6 rfl k0_dev23_eq (k0_dev23_lt c) (k0_off15_eq c) (k0_off15_inb c) (k0_off14_eq c) (k0_off14_inb c) inb_S16_S1_6 (guard_iff 6 c))
  isplitr; · iexact HC
  isplitl [HSB]; · iexact HSB
  iintro HSB

  iapply (le_wp_ret _ _ _ _ _)
  iexact HSB

end Cert.KernelIdealProof

end
-- ==== Proof.KernelIdeal.Part89.lean ====
import proofs.«901075_g7700000000001076_dist_sum_ax0_shard0_i_m1536_n768_v7x_i16_bf16_1_alg».proof.Proof.KernelIdeal.Proto
import proofs.«901075_g7700000000001076_dist_sum_ax0_shard0_i_m1536_n768_v7x_i16_bf16_1_alg».proof.Proof.KernelIdeal.Blocks

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Part89

-- Every copy issued, nothing is owed any more: the state before the first wait.
theorem SB16_SC0 (c : Dev nD) : SB m c 16 ⊢ SC m c 0 := by
  unfold SB SC Tail
  rw [owedAt_16_16 c, peersFrom_16 c (sendRes m c), peersUpto_16 c (sentRes c), peersFrom_0 c (sentRes c),
    peersUpto_0 c (doneRes m c)]
  iintro ⟨HO, -, HU, Hb, Hr, Hp, HW, Hs, Hv, Hg⟩
  isplitl [HO]; · iexact HO
  isplitl [HU]; · iexact HU
  isplitl [HW]; · iexact HW
  isplitr; · iempintro
  isplitl [Hb]; · iexact Hb
  isplitl [Hr]; · iexact Hr
  isplitl [Hp]; · iexact Hp
  isplitl [Hs]; · iexact Hs
  isplitl [Hv]; · iexact Hv
  iexact Hg

end Part89

open Part89
theorem part8_spec (K : Dev nD × Fin 35 → ℕ) (c : Dev nD) (v2 v197 : BitVec 32) :
    iprop(Ctx m K ∗ SB m c 7) ⊢ wp frame (wpE (defs₀ (F := F)) 𝒱₀ c none) Set.univ (part8 (F := F) c v2 v197)
      (fun _ => SC m c 1) := by
  unfold part8
  simp only [k0_part8_eq_skeleton]; unfold k0_part8_skel
  iintro ⟨#HC, HS⟩

  iapply (copy_step m K c 7 7 rfl k0_dev24_eq (k0_dev24_lt c) (k0_off17_eq c) (k0_off17_inb c) (k0_off16_eq c) (k0_off16_inb c) inb_S16_S1_7 (guard_iff 7 c))
  isplitr; · iexact HC
  isplitl [HS]; · iexact HS
  iintro HS

  iapply (copy_step m K c 8 8 rfl k0_dev25_eq (k0_dev25_lt c) (k0_off19_eq c) (k0_off19_inb c) (k0_off18_eq c) (k0_off18_inb c) inb_S16_S1_8 (guard_iff 8 c))
  isplitr; · iexact HC
  isplitl [HS]; · iexact HS
  iintro HS

  iapply (copy_step m K c 9 9 rfl k0_dev26_eq (k0_dev26_lt c) (k0_off21_eq c) (k0_off21_inb c) (k0_off20_eq c) (k0_off20_inb c) inb_S16_S1_9 (guard_iff 9 c))
  isplitr; · iexact HC
  isplitl [HS]; · iexact HS
  iintro HS

  iapply (copy_step m K c 10 10 rfl k0_dev27_eq (k0_dev27_lt c) (k0_off23_eq c) (k0_off23_inb c) (k0_off22_eq c) (k0_off22_inb c) inb_S16_S1_10 (guard_iff 10 c))
  isplitr; · iexact HC
  isplitl [HS]; · iexact HS
  iintro HS

  iapply (copy_step m K c 11 11 rfl k0_dev28_eq (k0_dev28_lt c) (k0_off25_eq c) (k0_off25_inb c) (k0_off24_eq c) (k0_off24_inb c) inb_S16_S1_11 (guard_iff 11 c))
  isplitr; · iexact HC
  isplitl [HS]; · iexact HS
  iintro HS

  iapply (copy_step m K c 12 12 rfl k0_dev29_eq (k0_dev29_lt c) (k0_off27_eq c) (k0_off27_inb c) (k0_off26_eq c) (k0_off26_inb c) inb_S16_S1_12 (guard_iff 12 c))
  isplitr; · iexact HC
  isplitl [HS]; · iexact HS
  iintro HS

  iapply (copy_step m K c 13 13 rfl k0_dev30_eq (k0_dev30_lt c) (k0_off29_eq c) (k0_off29_inb c) (k0_off28_eq c) (k0_off28_inb c) inb_S16_S1_13 (guard_iff 13 c))
  isplitr; · iexact HC
  isplitl [HS]; · iexact HS
  iintro HS

  iapply (copy_step m K c 14 14 rfl k0_dev31_eq (k0_dev31_lt c) (k0_off31_eq c) (k0_off31_inb c) (k0_off30_eq c) (k0_off30_inb c) inb_S16_S1_14 (guard_iff 14 c))
  isplitr; · iexact HC
  isplitl [HS]; · iexact HS
  iintro HS

  iapply (copy_step m K c 15 15 rfl k0_dev32_eq (k0_dev32_lt c) (k0_off33_eq c) (k0_off33_inb c) (k0_off32_eq c) (k0_off32_inb c) inb_S16_S1_15 (guard_iff 15 c))
  isplitr; · iexact HC
  isplitl [HS]; · iexact HS
  iintro HS

  ihave HS := (SB16_SC0 m c) $$ HS

  iapply (wait_step m K c 0 0 rfl (k0_off34_eq c) (k0_off34_inb c) inb_S16_S1_0 inb_S16x768_S1x768_0_0 (guard_iff 0 c))
  isplitr; · iexact HC
  isplitl [HS]; · iexact HS
  iintro HS
  iapply (wp_done c _ _ rfl (fun _ => SC m c 1))
  iexact HS

theorem part9_spec (K : Dev nD × Fin 35 → ℕ) (c : Dev nD) (v2 v227 : BitVec 32) :
    iprop(Ctx m K ∗ SC m c 1) ⊢ wp frame (wpE (defs₀ (F := F)) 𝒱₀ c none) Set.univ (part9 (F := F) c v2 v227)
      (fun _ => SC m c 11) := by
  unfold part9
  simp only [k0_part9_eq_skeleton]; unfold k0_part9_skel
  iintro ⟨#HC, HS⟩

  iapply (wait_step m K c 1 1 rfl (k0_off35_eq c) (k0_off35_inb c) inb_S16_S1_1 inb_S16x768_S1x768_1_0 (guard_iff 1 c))
  isplitr; · iexact HC
  isplitl [HS]; · iexact HS
  iintro HS

  iapply (wait_step m K c 2 2 rfl (k0_off36_eq c) (k0_off36_inb c) inb_S16_S1_2 inb_S16x768_S1x768_2_0 (guard_iff 2 c))
  isplitr; · iexact HC
  isplitl [HS]; · iexact HS
  iintro HS

  iapply (wait_step m K c 3 3 rfl (k0_off37_eq c) (k0_off37_inb c) inb_S16_S1_3 inb_S16x768_S1x768_3_0 (guard_iff 3 c))
  isplitr; · iexact HC
  isplitl [HS]; · iexact HS
  iintro HS

  iapply (wait_step m K c 4 4 rfl (k0_off38_eq c) (k0_off38_inb c) inb_S16_S1_4 inb_S16x768_S1x768_4_0 (guard_iff 4 c))
  isplitr; · iexact HC
  isplitl [HS]; · iexact HS
  iintro HS

  iapply (wait_step m K c 5 5 rfl (k0_off39_eq c) (k0_off39_inb c) inb_S16_S1_5 inb_S16x768_S1x768_5_0 (guard_iff 5 c))
  isplitr; · iexact HC
  isplitl [HS]; · iexact HS
  iintro HS

  iapply (wait_step m K c 6 6 rfl (k0_off40_eq c) (k0_off40_inb c) inb_S16_S1_6 inb_S16x768_S1x768_6_0 (guard_iff 6 c))
  isplitr; · iexact HC
  isplitl [HS]; · iexact HS
  iintro HS

  iapply (wait_step m K c 7 7 rfl (k0_off41_eq c) (k0_off41_inb c) inb_S16_S1_7 inb_S16x768_S1x768_7_0 (guard_iff 7 c))
  isplitr; · iexact HC
  isplitl [HS]; · iexact HS
  iintro HS

  iapply (wait_step m K c 8 8 rfl (k0_off42_eq c) (k0_off42_inb c) inb_S16_S1_8 inb_S16x768_S1x768_8_0 (guard_iff 8 c))
  isplitr; · iexact HC
  isplitl [HS]; · iexact HS
  iintro HS

  iapply (wait_step m K c 9 9 rfl (k0_off43_eq c) (k0_off43_inb c) inb_S16_S1_9 inb_S16x768_S1x768_9_0 (guard_iff 9 c))
  isplitr; · iexact HC
  isplitl [HS]; · iexact HS
  iintro HS

  iapply (wait_step m K c 10 10 rfl (k0_off44_eq c) (k0_off44_inb c) inb_S16_S1_10 inb_S16x768_S1x768_10_0 (guard_iff 10 c))
  isplitr; · iexact HC
  isplitl [HS]; · iexact HS
  iintro HS
  iapply (wp_done c _ _ rfl (fun _ => SC m c 11))
  iexact HS

end Cert.KernelIdealProof

end
-- ==== Proof.KernelIdeal.Cover.lean ====
import proofs.«901075_g7700000000001076_dist_sum_ax0_shard0_i_m1536_n768_v7x_i16_bf16_1_alg».proof.Proof.KernelIdeal.Proto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Cover

abbrev rowSet (j : Dev nD) : Finset S16x768.Idx := (rowM j).view.set

omit [FloatOps F] in
theorem row_set (j : Dev nD) : (rowM j).view.set = (rowRect j).set :=
  View.set_slice_whole _ _

omit [FloatOps F] in

theorem rows_disjoint (j j' : Dev nD) (h : j ≠ j') :
    Disjoint (rowSet j) (rowSet j') := by
  show Disjoint (rowM j).view.set (rowM j').view.set
  rw [row_set, row_set]
  refine Rect.unit_disjoint (0 : Fin 2) ?_
  have : j.val ≠ j'.val := fun e => h (Fin.ext e)
  show j.val + 1 ≤ j'.val ∨ j'.val + 1 ≤ j.val
  omega

omit [FloatOps F] in

theorem rows_cover : (Finset.univ.biUnion fun j : Dev nD => rowSet j) = Finset.univ := by
  ext i
  simp only [Finset.mem_biUnion, Finset.mem_univ, true_and, iff_true]
  refine ⟨(show Fin 16 from i 0), ?_⟩
  show i ∈ (rowM (show Fin 16 from i 0)).view.set
  rw [row_set, Rect.mem_set_unit]
  intro a
  match a with
  | ⟨0, _⟩ => exact ⟨le_rfl, Nat.lt_succ_self _⟩
  | ⟨1, _⟩ => exact ⟨Nat.zero_le _, by have := (i 1).isLt; simpa using this⟩

abbrev slotSet (s : Fin 2) : Finset S2x192x768.Idx := (slotM s).view.set

omit [FloatOps F] in
theorem slot_set (s : Fin 2) : (slotM s).view.set = (slotRect s).set := by
  show ((bufM.slice (slotRect s) (fun _ => rfl)).squeeze S192x768 squeezes_S1x192x768_S192x768).view.set = _
  exact (View.set_reshape _ _).trans (View.set_slice_whole _ _)

omit [FloatOps F] in
theorem slots_disjoint (s s' : Fin 2) (h : s ≠ s') : Disjoint (slotSet s) (slotSet s') := by
  show Disjoint (slotM s).view.set (slotM s').view.set
  rw [slot_set, slot_set]
  refine Rect.unit_disjoint (0 : Fin 3) ?_
  have : s.val ≠ s'.val := fun e => h (Fin.ext e)
  show s.val + 1 ≤ s'.val ∨ s'.val + 1 ≤ s.val
  omega

omit [FloatOps F] in
theorem slots_cover : (Finset.univ.biUnion fun s : Fin 2 => slotSet s) = Finset.univ := by
  ext i
  simp only [Finset.mem_biUnion, Finset.mem_univ, true_and, iff_true]
  refine ⟨(show Fin 2 from i 0), ?_⟩
  show i ∈ (slotM (show Fin 2 from i 0)).view.set
  rw [slot_set, Rect.mem_set_unit]
  intro a
  match a with
  | ⟨0, _⟩ => exact ⟨le_rfl, Nat.lt_succ_self _⟩
  | ⟨1, _⟩ => exact ⟨Nat.zero_le _, by have := (i 1).isLt; simpa using this⟩
  | ⟨2, _⟩ => exact ⟨Nat.zero_le _, by have := (i 2).isLt; simpa using this⟩

end Cover

end Cert.KernelIdealProof

end
-- ==== Proof.KernelIdeal.Finish.lean ====
import proofs.«901075_g7700000000001076_dist_sum_ax0_shard0_i_m1536_n768_v7x_i16_bf16_1_alg».proof.Proof.KernelIdeal.Proto
import proofs.«901075_g7700000000001076_dist_sum_ax0_shard0_i_m1536_n768_v7x_i16_bf16_1_alg».proof.Proof.KernelIdeal.Sched
import proofs.«901075_g7700000000001076_dist_sum_ax0_shard0_i_m1536_n768_v7x_i16_bf16_1_alg».proof.Proof.KernelIdeal.Owed
import proofs.«901075_g7700000000001076_dist_sum_ax0_shard0_i_m1536_n768_v7x_i16_bf16_1_alg».proof.Proof.KernelIdeal.Cover

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def finalP : Prog (TpuEff nD τ sig (Elt F) Λ₀ .tc) PUnit := do
  let v271 : Vec F S16x768 .f32 ← Prog.lift (.load (Memref.whole cc0_scratch2) (Rect.unit (s := S16x768) ![0, 0] S16x768.size inb_S16x768_S16x768_0_0).toLoadRect (View.loadsAt_vmem h_S16x768))
  let v274 : Vec F S1x768 .f32 ← Prog.lift (.load (Memref.whole cc0_stg0_0) (Rect.unit (s := S1x768) ![0, 0] S1x768.size inb_S1x768_S1x768_0_0).toLoadRect (View.loadsAt_vmem h_S1x768))
  Prog.lift (.store (Memref.whole cc0_stg0_0) (Rect.unit (s := S1x768) ![0, 0] S1x768.size inb_S1x768_S1x768_0_0) (k0_pay1 v271) Finset.univ (View.stores_vmem_bits_univ h_S1x768 rfl) (.inl rfl))
  pure ⟨⟩

namespace Finish

section Whole
variable (c : Dev nD)

theorem doneRes_split (S : Finset (Dev nD)) : bigSep S (doneRes m c)
    = iprop(bigSep S (recvPay m c) ∗ bigSep S (sendPay m c) ∗ bigSep S (fun j => atPos ER (sendCell c j) 1 ∅ 0)
        ∗ bigSep S (fun j => atPos ER (recvCell c j) 1 ∅ 0)) := by
  unfold doneRes
  rw [bigSep_sep', bigSep_sep', bigSep_sep']

theorem row_whole : iprop(rowRem m c ∗ bigSep (Finset.univ.erase c) (sendPay m c))
    ⊢ (((c : Thread nD τ).loc cc0_scratch2) ↦[(rowM c).view.set]{fullShare} commBuf m c) := by
  have e : bigSep Finset.univ (fun i : Fin 16 =>
        ((((c : Thread nD τ).loc cc0_scratch2) ↦[(rowM c).view.set]{Transfers.shareTok fullShare 16 i} commBuf m c) : sProp 𝕄))
      = iprop(sendPay m c c ∗ bigSep (Finset.univ.erase c) (sendPay m c)) := bigSep_univ_at _ c
  unfold rowRem
  refine BIBase.Entails.trans ?_ (Transfers.pointsTo_toks_join fullShare 16)
  rw [e]
  iintro ⟨⟨Hd, Hc⟩, Hs⟩
  isplitl [Hd]; · iexact Hd
  isplitl [Hc]; · iexact Hc
  iexact Hs

-- The sixteen rows, each at the table's contents, are the whole table.
theorem table_whole : iprop((((c : Thread nD τ).loc cc0_scratch2) ↦[(rowM c).view.set]{fullShare} commBuf m c)
      ∗ bigSep (Finset.univ.erase c) (recvPay m c))
    ⊢ (((c : Thread nD τ).loc cc0_scratch2) ↦{fullShare} commBuf m c) := by
  have hcov : (Finset.univ : Finset (Idx ((c : Thread nD τ).loc cc0_scratch2))) = Finset.univ.biUnion (fun j : Dev nD => rowSet j) :=
    rows_cover.symm
  have h : ((((c : Thread nD τ).loc cc0_scratch2) ↦{fullShare} commBuf m c) : sProp 𝕄)
      = bigSep Finset.univ (fun j : Dev nD => ((c : Thread nD τ).loc cc0_scratch2) ↦[rowSet j]{fullShare} commBuf m c) := by
    rw [hcov]
    exact pointsTo_biUnion _ _ (fun t _ t' _ hne => rows_disjoint t t' hne)
  rw [h, bigSep_univ_at _ c]
  exact .rfl

theorem buf_whole : iprop(slotAny c 0 ∗ slotAny c 1)
    ⊢ iprop(∃ f : Buf (Elt F) ((c : Thread nD τ).loc cc0_scratch0), ((c : Thread nD τ).loc cc0_scratch0) ↦{fullShare} f) := by
  have hu : (slotSet 0 ∪ slotSet 1 : Finset (Idx ((c : Thread nD τ).loc cc0_scratch0))) = Finset.univ := by
    have h := slots_cover
    rw [show (Finset.univ : Finset (Fin 2)) = {0, 1} from by decide, Finset.biUnion_insert, Finset.singleton_biUnion] at h
    exact h
  have hj : ∀ f0 f1 : Buf (Elt F) ((c : Thread nD τ).loc cc0_scratch0),
      (iprop((((c : Thread nD τ).loc cc0_scratch0) ↦[slotSet 0]{fullShare} f0) ∗ (((c : Thread nD τ).loc cc0_scratch0) ↦[slotSet 1]{fullShare} f1)) : sProp 𝕄)
      ⊢ iprop(∃ f : Buf (Elt F) ((c : Thread nD τ).loc cc0_scratch0), ((c : Thread nD τ).loc cc0_scratch0) ↦{fullShare} f) := by
    intro f0 f1
    have h : (iprop((((c : Thread nD τ).loc cc0_scratch0) ↦[slotSet 0]{fullShare} f0) ∗ (((c : Thread nD τ).loc cc0_scratch0) ↦[slotSet 1]{fullShare} f1)) : sProp 𝕄)
        ⊢ (((c : Thread nD τ).loc cc0_scratch0) ↦[slotSet 0 ∪ slotSet 1]{fullShare} ((slotSet 1).piecewise f1 f0)) :=
      pointsTo_join (slots_disjoint 0 1 (by decide))
    rw [hu] at h
    iintro H
    iexists (slotSet 1).piecewise f1 f0
    iapply h
    iexact H
  unfold slotAny owns
  iintro ⟨⟨%X0, %f0, -, H0⟩, ⟨%X1, %f1, -, H1⟩⟩
  iapply (hj f0 f1)
  isplitl [H0]; · iexact H0
  iexact H1

theorem stg_open : stgAny (F := F) c
    ⊢ iprop(∃ f : Buf (Elt F) ((c : Thread nD τ).loc cc0_stg0_0), ((c : Thread nD τ).loc cc0_stg0_0) ↦{fullShare} f) := by
  unfold stgAny
  simp only [owns_whole_eq]
  iintro ⟨%X, %f, -, H⟩
  iexists f
  iexact H
theorem stg_close (X : (cc0_stg0_0 : Ref sig .tc).ty.Contents (Elt F)) :
    ((((c : Thread nD τ).loc cc0_stg0_0) ↦{fullShare} X) : sProp 𝕄) ⊢ owns (c : Thread nD τ) outM fullShare X := by
  rw [owns_whole_eq]
  iintro H
  iexists X
  isplitr; · ipureintro; rfl
  iexact H

end Whole

section Close
variable (K : Dev nD × Fin 35 → ℕ) (c : Dev nD)

-- A family of cells past their last round closes with every counter at zero.
theorem close_family {ι : Type} [DecidableEq ι] (S : Finset ι) (g : ι → GSem nD τ sig) (R : ι → ℕ)
    (hinv : ∀ i ∈ S, records m K ⊢ iprop(∃ κ : ℕ, cellInv ER (Rd m) κ (g i)))
    (hR : ∀ i ∈ S, ∀ r, R i ≤ r → (Rd (F := F) m).duties (g i) r = ∅) :
    iprop(records m K ∗ bigSep S (fun i => atPos ER (g i) (R i) ∅ 0))
      ⊢ iprop(|={Set.univ}=> bigSep S (fun i => (semVal (g i) 0 : sProp 𝕄))) := by
  have h1 : records m K ⊢ bigSep S (fun i => iprop(∃ κ : ℕ, cellInv ER (Rd m) κ (g i))) := bigSep_intro_persistent hinv
  have hstep : ∀ i ∈ S, (iprop((∃ κ : ℕ, cellInv ER (Rd m) κ (g i)) ∗ atPos ER (g i) (R i) ∅ 0) : sProp 𝕄)
      ⊢ iprop(|={Set.univ}=> (semVal (g i) 0 : sProp 𝕄)) := by
    intro i hi
    iintro ⟨⟨%κ, Hc⟩, Hat⟩
    iapply (Rounds.cell_close ER (Rd m) (Set.mem_univ κ) (fun h => h) (R := R i) (hR i hi))
    isplitl [Hc]; · iexact Hc
    iexact Hat
  have h2 : (bigSep S (fun i => iprop((∃ κ : ℕ, cellInv ER (Rd m) κ (g i)) ∗ atPos ER (g i) (R i) ∅ 0)) : sProp 𝕄)
      ⊢ bigSep S (fun i => iprop(|={Set.univ}=> (semVal (g i) 0 : sProp 𝕄))) :=
    bigSep_mono hstep
  rw [bigSep_sep'] at h2
  refine BIBase.Entails.trans ?_ (bigSep_fupd S _)
  iintro ⟨#Hr, Hat⟩
  iapply h2
  isplitr
  · iapply h1; iexact Hr
  · iexact Hat

omit [FloatOps F] in

theorem atPos_family (g : Dev nD → GSem nD τ sig) :
    (iprop(atPos ER (g c) 0 ∅ 0 ∗ bigSep (Finset.univ.erase c) (fun j => atPos ER (g j) 1 ∅ 0)) : sProp 𝕄)
      ⊢ bigSep Finset.univ (fun j => atPos ER (g j) (if j = c then 0 else 1) ∅ 0) := by
  have e : bigSep (Finset.univ.erase c) (fun j => (atPos ER (g j) (if j = c then 0 else 1) ∅ 0 : sProp 𝕄))
      = bigSep (Finset.univ.erase c) (fun j => atPos ER (g j) 1 ∅ 0) :=
    bigSep_congr fun j hj => by rw [if_neg (Finset.ne_of_mem_erase hj)]
  rw [bigSep_univ_at _ c, e, if_pos rfl]

end Close

section Index

def ixCp (s : Fin 2) : Fin 34 := ⟨s.val, by have := s.isLt; omega⟩
def ixSend (t : Dev nD) : Fin 34 := ⟨2 + t.val, by have : t.val < 16 := t.isLt; omega⟩
def ixRecv (t : Dev nD) : Fin 34 := ⟨18 + t.val, by have : t.val < 16 := t.isLt; omega⟩

theorem osem_cp (s : Fin 2) : osem (ixCp s) = .dma (cpSem s) :=
  congrArg SemLoc.dma (Fin.ext (show s.val + 1 = 1 + s.val from Nat.add_comm _ _))
theorem osem_send (t : Dev nD) : osem (ixSend t) = .dma (sendSem t) :=
  congrArg SemLoc.dma (Fin.ext (show 2 + t.val + 1 = 3 + t.val by omega))
theorem osem_recv (t : Dev nD) : osem (ixRecv t) = .dma (recvSem t) :=
  congrArg SemLoc.dma (Fin.ext (show 18 + t.val + 1 = 19 + t.val by omega))

theorem ixCp_inj : Set.InjOn ixCp (Finset.univ : Finset (Fin 2)) := fun a _ b _ h => by
  have hv : (ixCp a).val = (ixCp b).val := congrArg Fin.val h
  exact Fin.ext hv
theorem ixSend_inj : Set.InjOn ixSend (Finset.univ : Finset (Dev nD)) := fun a _ b _ h => by
  have hv : (ixSend a).val = (ixSend b).val := congrArg Fin.val h
  have hv : 2 + a.val = 2 + b.val := hv
  exact Fin.ext (by omega)
theorem ixRecv_inj : Set.InjOn ixRecv (Finset.univ : Finset (Dev nD)) := fun a _ b _ h => by
  have hv : (ixRecv a).val = (ixRecv b).val := congrArg Fin.val h
  have hv : 18 + a.val = 18 + b.val := hv
  exact Fin.ext (by omega)

theorem mem_cp {k : Fin 34} (h : k ∈ (Finset.univ : Finset (Fin 2)).image ixCp) : k.val < 2 := by
  obtain ⟨s, _, rfl⟩ := Finset.mem_image.mp h; exact s.isLt
theorem mem_send {k : Fin 34} (h : k ∈ (Finset.univ : Finset (Dev nD)).image ixSend) : 2 ≤ k.val ∧ k.val < 18 := by
  obtain ⟨t, _, rfl⟩ := Finset.mem_image.mp h
  have : t.val < 16 := t.isLt
  exact ⟨Nat.le_add_right _ _, by show 2 + t.val < 18; omega⟩
theorem mem_recv {k : Fin 34} (h : k ∈ (Finset.univ : Finset (Dev nD)).image ixRecv) : 18 ≤ k.val := by
  obtain ⟨t, _, rfl⟩ := Finset.mem_image.mp h; exact Nat.le_add_right _ _

theorem fin34_cover : (Finset.univ : Finset (Fin 34))
    = (Finset.univ : Finset (Fin 2)).image ixCp ∪ ((Finset.univ : Finset (Dev nD)).image ixSend ∪ (Finset.univ : Finset (Dev nD)).image ixRecv) := by
  ext k
  simp only [Finset.mem_univ, Finset.mem_union, Finset.mem_image, true_and, true_iff]
  by_cases h2 : k.val < 2
  · exact Or.inl ⟨⟨k.val, h2⟩, Fin.ext rfl⟩
  · by_cases h18 : k.val < 18
    · exact Or.inr (Or.inl ⟨⟨k.val - 2, by show k.val - 2 < 16; omega⟩, Fin.ext (by show 2 + (k.val - 2) = k.val; omega)⟩)
    · exact Or.inr (Or.inr ⟨⟨k.val - 18, by have := k.isLt; show k.val - 18 < 16; omega⟩, Fin.ext (by show 18 + (k.val - 18) = k.val; omega)⟩)

omit [FloatOps F] in

theorem fin34_split (Φ : Fin 34 → sProp (MT nD τ sig Unit (Elt F) ℕ UU ℕ)) : bigSep Finset.univ Φ
    = iprop(bigSep Finset.univ (fun s : Fin 2 => Φ (ixCp s)) ∗ bigSep Finset.univ (fun t : Dev nD => Φ (ixSend t))
        ∗ bigSep Finset.univ (fun t : Dev nD => Φ (ixRecv t))) := by
  have d1 : Disjoint ((Finset.univ : Finset (Fin 2)).image ixCp)
      ((Finset.univ : Finset (Dev nD)).image ixSend ∪ (Finset.univ : Finset (Dev nD)).image ixRecv) :=
    Finset.disjoint_left.mpr fun k hk hk' => by
      have h1 := mem_cp hk
      rcases Finset.mem_union.mp hk' with h | h
      · have := (mem_send h).1; omega
      · have := mem_recv h; omega
  have d2 : Disjoint ((Finset.univ : Finset (Dev nD)).image ixSend) ((Finset.univ : Finset (Dev nD)).image ixRecv) :=
    Finset.disjoint_left.mpr fun k hk hk' => by
      have h1 := (mem_send hk).2; have h2 := mem_recv hk'; omega
  rw [fin34_cover, bigSep_union d1, bigSep_union d2, bigSep_image_of_injOn ixCp_inj, bigSep_image_of_injOn ixSend_inj,
    bigSep_image_of_injOn ixRecv_inj]
  rfl

end Index

end Finish

open Finish

theorem final_spec (K : Dev nD × Fin 35 → ℕ) (c : Dev nD) :
    iprop(Ctx m K ∗ SC m c 16) ⊢ wp frame (wpE (defs₀ (F := F)) 𝒱₀ c none) Set.univ (finalP (F := F)) (fun _ => Done m c) := by
  have hz00 : (![0, 0] : Fin 2 → Nat) = fun _ => 0 := funext fun a => by fin_cases a <;> rfl
  unfold Ctx SC Cp7 finalP
  simp only [Prog.bind_lift, Prog.pure_eq_ret]
  rw [peersFrom_16, peersFrom_16, peersUpto_16, doneRes_split]
  iintro ⟨⟨#Hrec, -⟩, Howes, -, -, ⟨Hrows, Hshares, HatS, HatR⟩, -, Hrem, ⟨Hx, Hs0, Hs1, Hcp0, Hcp1⟩, HatSc, HatRc, Hstg⟩

  ihave Hrow := (row_whole m c) $$ [Hrem Hshares]
  · isplitl [Hrem]; · iexact Hrem
    iexact Hshares
  ihave Htab := (table_whole m c) $$ [Hrow Hrows]
  · isplitl [Hrow]; · iexact Hrow
    iexact Hrows
  ihave Hbuf := (buf_whole c) $$ [Hs0 Hs1]
  · isplitl [Hs0]; · iexact Hs0
    iexact Hs1

  imod (close_family m K (Finset.univ : Finset (Fin 2)) (fun s => cpCell c s) (fun _ => 4) (fun s _ => rec_cp m K c s)
      (fun s _ => duties_cp_later m c s)) $$ [Hcp0 Hcp1] with Hz2
  · isplitr; · iexact Hrec
    rw [bigSep_univ_two]
    isplitl [Hcp0]; · iexact Hcp0
    iexact Hcp1
  imod (close_family m K (Finset.univ : Finset (Dev nD)) (fun t => sendCell c t) (fun t => if t = c then 0 else 1)
      (fun t _ => rec_send m K c t)
      (fun t _ r hr => by
        by_cases h : t = c
        · subst h; exact duties_send_self m t r
        · rw [if_neg h] at hr; exact duties_send_later m c t r hr)) $$ [HatSc HatS] with HzS
  · isplitr; · iexact Hrec
    iapply (atPos_family c (fun t => sendCell c t))
    isplitl [HatSc]; · iexact HatSc
    iexact HatS
  imod (close_family m K (Finset.univ : Finset (Dev nD)) (fun t => recvCell c t) (fun t => if t = c then 0 else 1)
      (fun t _ => rec_recv m K c t)
      (fun t _ r hr => by
        by_cases h : t = c
        · subst h; exact duties_recv_self m t r
        · rw [if_neg h] at hr; exact duties_recv_later m c t r hr)) $$ [HatRc HatR] with HzR
  · isplitr; · iexact Hrec
    iapply (atPos_family c (fun t => recvCell c t))
    isplitl [HatRc]; · iexact HatRc
    iexact HatR

  have hread : (Memref.whole cc0_scratch2 : Memref sig .tc .vmem S16x768 .f32).view.readAt (Elt F)
      (Rect.unit (s := S16x768) ![0, 0] S16x768.size inb_S16x768_S16x768_0_0).toLoadRect (commBuf m c) = commBuf m c :=
    Memref.readAt_unit_zero (Elt F) cc0_scratch2 hz00 _ _
  have hwrite : ∀ (fo : Buf (Elt F) ((c : Thread nD τ).loc cc0_stg0_0)) (w : Vec F S1x768 .f32),
      ((Memref.whole cc0_stg0_0 : Memref sig .tc .vmem S1x768 .f32).access
        (Rect.unit (s := S1x768) ![0, 0] S1x768.size inb_S1x768_S1x768_0_0)).write (Elt F) fo w Finset.univ = w :=
    fun fo w => Memref.write_access_unit_zero_univ (Elt F) cc0_stg0_0 hz00 _ fo w
  iapply (wp_load 𝒱₀ (c : Thread nD τ) none Set.univ (m := Memref.whole cc0_scratch2) (Finset.subset_univ _)) $$ Htab; iintro Htab
  rw [hread]

  ihave Hstg' := (stg_open c) $$ Hstg
  icases Hstg' with ⟨%fo, Hstg⟩
  iapply (wp_load 𝒱₀ (c : Thread nD τ) none Set.univ (m := Memref.whole cc0_stg0_0) (Finset.subset_univ _)) $$ Hstg; iintro Hstg
  iapply (wp_store 𝒱₀ (c : Thread nD τ) none Set.univ (m := Memref.whole cc0_stg0_0)
    (r := Rect.unit (s := S1x768) ![0, 0] S1x768.size inb_S1x768_S1x768_0_0) (Mk := Finset.univ) (Finset.subset_univ _)) $$ Hstg; iintro Hstg
  rw [hwrite, wp_ret]
  imodintro
  unfold Done
  isplitl [Howes]; · iexact Howes
  isplitl [Hstg]
  · iapply (stg_close c (outV m)); iexact Hstg
  isplitl [Hx]; · iexact Hx
  isplitl [Hbuf]; · iexact Hbuf
  isplitl [Htab]; · iexists commBuf m c; iexact Htab
  rw [fin34_split]
  simp only [osem_cp, osem_send, osem_recv]
  isplitl [Hz2]; · iexact Hz2
  isplitl [HzS]; · iexact HzS
  iexact HzR

end Cert.KernelIdealProof

end
-- ==== Proof.KernelIdeal.Body.lean ====
import proofs.«901075_g7700000000001076_dist_sum_ax0_shard0_i_m1536_n768_v7x_i16_bf16_1_alg».proof.Proof.KernelIdeal.Proto
import proofs.«901075_g7700000000001076_dist_sum_ax0_shard0_i_m1536_n768_v7x_i16_bf16_1_alg».proof.Proof.KernelIdeal.Part12
import proofs.«901075_g7700000000001076_dist_sum_ax0_shard0_i_m1536_n768_v7x_i16_bf16_1_alg».proof.Proof.KernelIdeal.Part36
import proofs.«901075_g7700000000001076_dist_sum_ax0_shard0_i_m1536_n768_v7x_i16_bf16_1_alg».proof.Proof.KernelIdeal.Part7
import proofs.«901075_g7700000000001076_dist_sum_ax0_shard0_i_m1536_n768_v7x_i16_bf16_1_alg».proof.Proof.KernelIdeal.Part89
import proofs.«901075_g7700000000001076_dist_sum_ax0_shard0_i_m1536_n768_v7x_i16_bf16_1_alg».proof.Proof.KernelIdeal.Cover
import proofs.«901075_g7700000000001076_dist_sum_ax0_shard0_i_m1536_n768_v7x_i16_bf16_1_alg».proof.Proof.KernelIdeal.Finish

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Seq
variable (K : Dev nD × Fin 35 → ℕ) (c : Dev nD)

theorem seq_ctx {α β : Type} {p : Prog (TpuEff nD τ sig (Elt F) Λ₀ .tc) α} {k : α → Prog (TpuEff nD τ sig (Elt F) Λ₀ .tc) β}
    {P : sProp 𝕄} {Q : α → sProp 𝕄} {R : β → sProp 𝕄}
    (hp : iprop(Ctx m K ∗ P) ⊢ wp frame (wpE (defs₀ (F := F)) 𝒱₀ c none) Set.univ p Q) (hk : ∀ a, iprop(Ctx m K ∗ Q a) ⊢ wp frame (wpE (defs₀ (F := F)) 𝒱₀ c none) Set.univ (k a) R) :
    iprop(Ctx m K ∗ P) ⊢ wp frame (wpE (defs₀ (F := F)) 𝒱₀ c none) Set.univ (p >>= k) R := by
  rw [wp_bind]
  iintro ⟨#HC, HP⟩
  ihave H := hp $$ [HP]
  · isplitr; · iexact HC
    iexact HP
  iapply (wp_wand _ _ _) $$ H
  iintro %a HQ
  iapply (hk a)
  isplitr; · iexact HC
  iexact HQ

theorem seq_ctx_pure {α β : Type} {p : Prog (TpuEff nD τ sig (Elt F) Λ₀ .tc) α} {k : α → Prog (TpuEff nD τ sig (Elt F) Λ₀ .tc) β}
    {P : sProp 𝕄} {φ : α → Prop} {Q : α → sProp 𝕄} {R : β → sProp 𝕄}
    (hp : iprop(Ctx m K ∗ P) ⊢ wp frame (wpE (defs₀ (F := F)) 𝒱₀ c none) Set.univ p (fun a => iprop(⌜φ a⌝ ∗ Q a)))
    (hk : ∀ a, φ a → iprop(Ctx m K ∗ Q a) ⊢ wp frame (wpE (defs₀ (F := F)) 𝒱₀ c none) Set.univ (k a) R) :
    iprop(Ctx m K ∗ P) ⊢ wp frame (wpE (defs₀ (F := F)) 𝒱₀ c none) Set.univ (p >>= k) R :=
  seq_ctx m K c hp fun a => by
    iintro ⟨#HC, %ha, HQ⟩
    iapply (hk a ha)
    isplitr; · iexact HC
    iexact HQ

end Seq

set_option maxHeartbeats 1000000 in

-- The printed body, part by part, from the launch state to `Done`.
theorem sound_body (K : Dev nD × Fin 35 → ℕ) (c : Dev nD) :
    iprop(Ctx m K ∗ SA c 0 (Cp0 m c)) ⊢ wp frame (wpE (defs₀ (F := F)) 𝒱₀ c none) Set.univ (bodyP (F := F)) (fun _ => Done m c) := by
  show _ ⊢ wp frame (wpE (defs₀ (F := F)) 𝒱₀ c none) Set.univ (cc0_body (F := F) (Memref.whole main_arg0) (Memref.isWhole_whole _) (Memref.whole cc0_stg0_0) (Memref.isWhole_whole _) (Memref.whole cc0_scratch0) (Memref.isWhole_whole _) cc0_scratch1 (Memref.whole cc0_scratch2) (Memref.isWhole_whole _) cc0_scratch3 cc0_scratch4) _
  rw [cc0_body_eq_skeleton]; unfold cc0_body_skel
  refine seq_ctx_pure m K c (part1_spec m K c) (fun r hr => ?_)
  obtain ⟨d0, v2, v8⟩ := r
  obtain ⟨h1, h2⟩ := hr
  dsimp only at h1 h2
  subst h1; subst h2
  dsimp -zeta only
  refine seq_ctx m K d0 (part2_spec m K d0 v2) (fun _ => ?_)
  refine seq_ctx_pure m K d0 (part3_spec m K d0) (fun v hv => ?_); subst hv
  refine seq_ctx_pure m K d0 (part4_spec m K d0) (fun v hv => ?_); subst hv
  refine seq_ctx_pure m K d0 (part5_spec m K d0) (fun v hv => ?_); subst hv
  refine seq_ctx_pure m K d0 (part6_spec m K d0) (fun v hv => ?_); subst hv
  refine seq_ctx m K d0 (part7_spec m K d0 v2) (fun v197 => ?_)
  refine seq_ctx m K d0 (part8_spec m K d0 v2 v197) (fun v227 => ?_)
  refine seq_ctx m K d0 (part9_spec m K d0 v2 v227) (fun v257 => ?_)
  iintro ⟨#HC, HS⟩

  iapply (wait_step m K d0 11 11 rfl (k0_off45_eq d0) (k0_off45_inb d0) inb_S16_S1_11 inb_S16x768_S1x768_11_0 (guard_iff 11 d0))
  isplitr; · iexact HC
  isplitl [HS]; · iexact HS
  iintro HS

  iapply (wait_step m K d0 12 12 rfl (k0_off46_eq d0) (k0_off46_inb d0) inb_S16_S1_12 inb_S16x768_S1x768_12_0 (guard_iff 12 d0))
  isplitr; · iexact HC
  isplitl [HS]; · iexact HS
  iintro HS

  iapply (wait_step m K d0 13 13 rfl (k0_off47_eq d0) (k0_off47_inb d0) inb_S16_S1_13 inb_S16x768_S1x768_13_0 (guard_iff 13 d0))
  isplitr; · iexact HC
  isplitl [HS]; · iexact HS
  iintro HS

  iapply (wait_step m K d0 14 14 rfl (k0_off48_eq d0) (k0_off48_inb d0) inb_S16_S1_14 inb_S16x768_S1x768_14_0 (guard_iff 14 d0))
  isplitr; · iexact HC
  isplitl [HS]; · iexact HS
  iintro HS

  iapply (wait_step m K d0 15 15 rfl (k0_off49_eq d0) (k0_off49_inb d0) inb_S16_S1_15 inb_S16x768_S1x768_15_0 (guard_iff 15 d0))
  isplitr; · iexact HC
  isplitl [HS]; · iexact HS
  iintro HS

  iapply (final_spec m K d0)
  isplitr; · iexact HC
  iexact HS

end Cert.KernelIdealProof

end
-- ==== Proof.KernelIdeal.Launch.lean ====
import proofs.«901075_g7700000000001076_dist_sum_ax0_shard0_i_m1536_n768_v7x_i16_bf16_1_alg».proof.Proof.KernelIdeal.Proto
import proofs.«901075_g7700000000001076_dist_sum_ax0_shard0_i_m1536_n768_v7x_i16_bf16_1_alg».proof.Proof.KernelIdeal.Body
import proofs.«901075_g7700000000001076_dist_sum_ax0_shard0_i_m1536_n768_v7x_i16_bf16_1_alg».proof.Proof.KernelIdeal.Cover

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

namespace Launch

def pos (c : Dev nD) : sProp 𝕄 := bigSep Finset.univ fun k : Fin 35 => atPos ER (kcell (c, k)) 0 ∅ 0

def toks (c : Dev nD) : sProp 𝕄 :=
  iprop((bigSep Finset.univ fun t : Dev nD => dutyTok ER (barCell t) 0 c)
    ∗ (bigSep Finset.univ fun t : Dev nD => dutyTok ER (sendCell c t) 0 0)
    ∗ (bigSep Finset.univ fun t : Dev nD => dutyTok ER (recvCell t c) 0 0)
    ∗ (bigSep Finset.univ fun k : Fin 8 => cpTok c k))

def creds (c : Dev nD) : sProp 𝕄 :=
  iprop(cred (tallyAt (barCell c) () 15) ∗ bigSep (Finset.univ.erase c) fun j : Dev nD => cred (tallyAt (recvCell c j) () Nrow))

def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch2), ((c : Thread nD τ).loc cc0_scratch2) ↦{fullShare} f))

def start (c : Dev nD) : sProp 𝕄 :=
  iprop((∃ K, records m K) ∗ levAts L lv ∗ pos c ∗ toks c ∗ creds c ∗ xAll m c)

def Φ₀ (c : Dev nD) : sProp 𝕄 := iprop(start m c ∗ scr c)

def Φ₁ (c : Dev nD) : sProp 𝕄 :=
  iprop(xAll m c ∗ scr c ∗ bigSep Finset.univ fun k : Fin 34 => semVal ((c : Thread nD τ), osem k) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

def bodyPre' (c : Dev nD) : sProp 𝕄 :=
  iprop(Φ₀ m c ∗ (dats m ρ 0 c).owesAt () t0_0.castSucc
    ∗ (∃ d, owns (c : Thread nD τ) outM fullShare ((dats m ρ 0 c).before (0 : Fin 1) t0_0 d)))

def bodyPost (c : Dev nD) : sProp 𝕄 :=
  iprop(Φ₁ m c ∗ (dats m ρ 0 c).owesAt () t0_0.succ ∗ owns (c : Thread nD τ) outM fullShare (outV m))

theorem bigSep_cells (Φ : Fin 35 → sProp 𝕄) :
    bigSep Finset.univ Φ = iprop(((Φ 0 ∗ Φ 1 ∗ Φ 2) ∗ bigSep Finset.univ fun t : Fin 16 => Φ ⟨3 + t.val, by have := t.isLt; omega⟩)
      ∗ bigSep Finset.univ fun j : Fin 16 => Φ ⟨19 + j.val, by have := j.isLt; omega⟩) := by
  rw [bigSep_univ_equiv (finSumFinEquiv : Fin 19 ⊕ Fin 16 ≃ Fin 35) Φ, bigSep_univ_sum,
    bigSep_univ_equiv (finSumFinEquiv : Fin 3 ⊕ Fin 16 ≃ Fin 19), bigSep_univ_sum,
    bigSep_univ_eq_bigSepL [(0 : Fin 3), 1, 2] (by decide) (by decide)]
  rfl

theorem pos_split (c : Dev nD) :
    pos c ⊢ (iprop(atPos ER (barCell c) 0 ∅ 0 ∗ atPos ER (cpCell c 0) 0 ∅ 0 ∗ atPos ER (cpCell c 1) 0 ∅ 0
      ∗ (bigSep Finset.univ fun t : Dev nD => atPos ER (sendCell c t) 0 ∅ 0)
      ∗ (bigSep Finset.univ fun j : Dev nD => atPos ER (recvCell c j) 0 ∅ 0)) : sProp 𝕄) := by
  unfold pos
  rw [bigSep_cells]
  simp only [kcell_send, kcell_recv]
  rw [show kcell (c, (0 : Fin 35)) = barCell c from rfl, show kcell (c, (1 : Fin 35)) = cpCell c 0 from kcell_cp c 0,
    show kcell (c, (2 : Fin 35)) = cpCell c 1 from kcell_cp c 1]
  iintro ⟨⟨⟨H0, H1, H2⟩, HS⟩, HR⟩
  isplitl [H0]; · iexact H0
  isplitl [H1]; · iexact H1
  isplitl [H2]; · iexact H2
  isplitl [HS]; · iexact HS
  iexact HR

theorem pointsTo_cover {T : Type} [Fintype T] {ℓ : Loc nD τ sig} (K : T → Finset (Idx ℓ))
    (hd : ∀ t t', t ≠ t' → Disjoint (K t) (K t')) (hc : ∀ i, ∃ t, i ∈ K t) (q : PosShare TreeShare) (f : Buf (Elt F) ℓ) :
    (ℓ ↦{q} f : sProp 𝕄) = bigSep Finset.univ fun t => ℓ ↦[K t]{q} f := by
  rw [← pointsTo_biUnion Finset.univ K (fun t _ t' _ h => hd t t' h)]
  refine congrArg (fun I => (ℓ ↦[I]{q} f : sProp 𝕄)) (Finset.ext fun i => ?_)
  simp only [Finset.mem_univ, Finset.mem_biUnion, true_and, true_iff]
  exact hc i

theorem row_mem (i : S16x768.Idx) : ∃ j : Dev nD, i ∈ rowSet j := by
  have h : i ∈ (Finset.univ.biUnion fun j : Dev nD => rowSet j) := by rw [rows_cover]; exact Finset.mem_univ _
  obtain ⟨j, -, hj⟩ := Finset.mem_biUnion.mp h
  exact ⟨j, hj⟩
theorem slot_mem (i : S2x192x768.Idx) : ∃ s : Fin 2, i ∈ slotSet s := by
  have h : i ∈ (Finset.univ.biUnion fun s : Fin 2 => slotSet s) := by rw [slots_cover]; exact Finset.mem_univ _
  obtain ⟨s, -, hs⟩ := Finset.mem_biUnion.mp h
  exact ⟨s, hs⟩

theorem rowAny_intro (c j : Dev nD) (f : Buf (Elt F) ((c : Thread nD τ).loc cc0_scratch2)) :
    ((((c : Thread nD τ).loc cc0_scratch2) ↦[rowSet j]{fullShare} f) : sProp 𝕄) ⊢ rowAny c j := by
  unfold rowAny
  iintro H; iexists _; iapply (owns_intro (c : Thread nD τ) (rowM j) fullShare f); iexact H
theorem slotAny_intro (c : Dev nD) (s : Fin 2) (f : Buf (Elt F) ((c : Thread nD τ).loc cc0_scratch0)) :
    ((((c : Thread nD τ).loc cc0_scratch0) ↦[slotSet s]{fullShare} f) : sProp 𝕄) ⊢ slotAny c s := by
  unfold slotAny
  iintro H; iexists _; iapply (owns_intro (c : Thread nD τ) (slotM s) fullShare f); iexact H

theorem rows_split (c : Dev nD) :
    iprop(∃ f : Buf (Elt F) ((c : Thread nD τ).loc cc0_scratch2), ((c : Thread nD τ).loc cc0_scratch2) ↦{fullShare} f)
      ⊢ (bigSep Finset.univ fun j : Dev nD => rowAny c j : sProp 𝕄) := by
  iintro ⟨%f, H⟩
  iapply (show ((((c : Thread nD τ).loc cc0_scratch2) ↦{fullShare} f) : sProp 𝕄) ⊢ bigSep Finset.univ fun j : Dev nD => rowAny c j from
    (Entails.of_eq (pointsTo_cover (ℓ := (c : Thread nD τ).loc cc0_scratch2) (fun j : Dev nD => rowSet j) (fun j j' h => rows_disjoint j j' h) row_mem fullShare f)).trans
      (bigSep_mono fun j _ => rowAny_intro c j f))
  iexact H

theorem slots_split (c : Dev nD) :
    iprop(∃ f : Buf (Elt F) ((c : Thread nD τ).loc cc0_scratch0), ((c : Thread nD τ).loc cc0_scratch0) ↦{fullShare} f)
      ⊢ (iprop(slotAny c 0 ∗ slotAny c 1) : sProp 𝕄) := by
  iintro ⟨%f, H⟩
  iapply (show ((((c : Thread nD τ).loc cc0_scratch0) ↦{fullShare} f) : sProp 𝕄) ⊢ iprop(slotAny c 0 ∗ slotAny c 1) from
    (Entails.of_eq (pointsTo_cover (ℓ := (c : Thread nD τ).loc cc0_scratch0) (fun s : Fin 2 => slotSet s) (fun s s' h => slots_disjoint s s' h) slot_mem fullShare f)).trans
      ((bigSep_mono fun s _ => slotAny_intro c s f).trans
        (Entails.of_eq (bigSep_univ_two (fun s : Fin 2 => (slotAny c s : sProp 𝕄))))))
  iexact H

theorem start_SA (c : Dev nD) :
    iprop(Φ₀ m c ∗ owesE c (owedAt c 0 0) ∗ stgAny c) ⊢ iprop(∃ K, Ctx m K ∗ SA c 0 (Cp0 m c)) := by
  unfold Φ₀ start scr toks creds
  iintro ⟨⟨⟨⟨%K, HK⟩, Hlev, Hpos, ⟨Tb, Ts, Tr, Tc⟩, ⟨Cb, Cr⟩, Hx⟩, H0, H2⟩, Ho, Hstg⟩
  ihave Hp := (pos_split (F := F) c) $$ Hpos
  icases Hp with ⟨Pb, Pc0, Pc1, Ps, Pr⟩
  ihave Hrows := (rows_split (F := F) c) $$ H2
  ihave Hslots := (slots_split (F := F) c) $$ H0
  icases Hslots with ⟨S0, S1⟩
  ihave Hrows' := (Entails.of_eq (bigSep_univ_at (fun j : Dev nD => (rowAny c j : sProp 𝕄)) c)) $$ Hrows
  icases Hrows' with ⟨Rc, Rr⟩
  ihave Ps' := (Entails.of_eq (bigSep_univ_at (fun t : Dev nD => (atPos ER (sendCell c t) 0 ∅ 0 : sProp 𝕄)) c)) $$ Ps
  icases Ps' with ⟨Psc, Psr⟩
  ihave Pr' := (Entails.of_eq (bigSep_univ_at (fun j : Dev nD => (atPos ER (recvCell c j) 0 ∅ 0 : sProp 𝕄)) c)) $$ Pr
  icases Pr' with ⟨Prc, Prr⟩
  ihave Tb' := (Entails.of_eq (bigSep_univ_at (fun t : Dev nD => (dutyTok ER (barCell t) 0 c : sProp 𝕄)) c)) $$ Tb
  icases Tb' with ⟨-, Tbr⟩
  ihave Ts' := (Entails.of_eq (bigSep_univ_at (fun t : Dev nD => (dutyTok ER (sendCell c t) 0 0 : sProp 𝕄)) c)) $$ Ts
  icases Ts' with ⟨-, Tsr⟩
  ihave Tr' := (Entails.of_eq (bigSep_univ_at (fun t : Dev nD => (dutyTok ER (recvCell t c) 0 0 : sProp 𝕄)) c)) $$ Tr
  icases Tr' with ⟨-, Trr⟩
  ihave Tc' := (Entails.of_eq (bigSep_univ_eq_bigSepL [(0 : Fin 8), 1, 2, 3, 4, 5, 6, 7] (by decide) (by decide) (fun k => (cpTok c k : sProp 𝕄)))) $$ Tc
  iexists K
  unfold Ctx SA Cp0 Tail sendToks barOwn
  rw [peersFrom_0, peersFrom_0, peersFrom_0]
  unfold sigRes waitRes
  simp only [bigSep_sep']
  isplitl [HK Hlev]
  · isplitl [HK] <;> iassumption
  isplitl [Ho]; · iexact Ho
  isplitl [Tbr Rr]
  · isplitl [Tbr] <;> iassumption
  isplitl [Tsr Trr]
  · isplitl [Tsr] <;> iassumption
  isplitl [Pb Cb]
  · isplitl [Pb] <;> iassumption
  isplitl [Rc]; · iexact Rc
  isplitl [Hx S0 S1 Pc0 Pc1 Tc']
  · isplitl [Hx]; · iexact Hx
    isplitl [S0]; · iexact S0
    isplitl [S1]; · iexact S1
    isplitl [Pc0]; · iexact Pc0
    isplitl [Pc1]; · iexact Pc1
    iexact Tc'
  isplitl [Psr Prr Cr]
  · isplitl [Psr]; · iexact Psr
    isplitl [Prr] <;> iassumption
  isplitl [Psc]; · iexact Psc
  isplitl [Prc]; · iexact Prc
  iexact Hstg

theorem done_post (c : Dev nD) : Done m c ⊢ bodyPost m ρ c := by
  unfold Done bodyPost Φ₁ scr owesE
  iintro ⟨⟨%W, Ho⟩, Hout, Hx, H0, H2, Hz⟩
  isplitl [Hx H0 H2 Hz]
  · isplitl [Hx]; · iexact Hx
    isplitl [H0 H2]
    · isplitl [H0] <;> iassumption
    · iexact Hz
  isplitl [Ho]
  · iexists W
    isplitr
    · ipureintro; exact fun _ _ => Or.inl trivial
    · iexact Ho
  · iexact Hout

set_option maxRecDepth 4000 in

theorem body_obligation (c : Dev nD) : BodyObligation (dats (F := F) m ρ 0 c) (defs₀ (F := F)) 𝒱₀ () Set.univ := fun t => by
  rw [fin_N0 t]
  rw [bigSep_W0, bigSep_W0]
  show bodyPre' m ρ c ⊢ wp frame (wpE (defs₀ (F := F)) 𝒱₀ c none) Set.univ (bodyP (F := F)) (fun _ => bodyPost m ρ c)
  refine (show bodyPre' m ρ c ⊢ iprop(∃ K, Ctx m K ∗ SA c 0 (Cp0 m c)) from ?_).trans ?_
  · unfold bodyPre'
    iintro ⟨HΦ, ⟨%W, -, Ho⟩, ⟨%d, Hstg⟩⟩
    iapply (start_SA m c)
    isplitl [HΦ]; · iexact HΦ
    isplitl [Ho]
    · unfold owesE; iexists W; iexact Ho
    · unfold stgAny; iexists _; iexact Hstg
  · iintro ⟨%K, H⟩
    iapply (wp_mono frame (wpE (defs₀ (F := F)) 𝒱₀ c none) Set.univ (fun _ => done_post m ρ c))
    iapply (sound_body m K c)
    iexact H

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by
  intro k k' h
  unfold csem at h
  by_cases hk : k.val = 0 <;> by_cases hk' : k'.val = 0
  · exact Fin.ext (hk.trans hk'.symm)
  · rw [if_pos hk, if_neg hk'] at h; cases h
  · rw [if_neg hk, if_pos hk'] at h; cases h
  · rw [if_neg hk, if_neg hk'] at h
    exact Fin.ext (Fin.val_eq_of_eq (SemLoc.dma.inj h))

theorem kcell_injective : Function.Injective (kcell : Dev nD × Fin 35 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ourCells : Finset (GSem nD τ sig) := Finset.univ.map ⟨kcell, kcell_injective⟩

def tokOf (x : Dev nD × (Dev nD ⊕ Dev nD ⊕ Dev nD ⊕ Fin 8)) : GSem nD τ sig × ℕ × Dev nD := match x.2 with
  | .inl t => (barCell t, 0, x.1)
  | .inr (.inl t) => (sendCell x.1 t, 0, 0)
  | .inr (.inr (.inl t)) => (recvCell t x.1, 0, 0)
  | .inr (.inr (.inr k)) => (cpCell x.1 ⟨k.val % 2, Nat.mod_lt _ (by decide)⟩, k.val / 2, 0)

def tokInv (y : GSem nD τ sig × ℕ × Dev nD) : Dev nD × (Dev nD ⊕ Dev nD ⊕ Dev nD ⊕ Fin 8) :=
  match kindOf y.1.2 with
  | .bar => (y.2.2, .inl y.1.1.1)
  | .cp s => (y.1.1.1, .inr (.inr (.inr ⟨(2 * y.2.1 + s.val) % 8, Nat.mod_lt _ (by decide)⟩)))
  | .send t => (y.1.1.1, .inr (.inl t))
  | .recv j => (j, .inr (.inr (.inl y.1.1.1)))
  | .other => (y.2.2, .inl y.2.2)

theorem tokInv_tokOf (x : Dev nD × (Dev nD ⊕ Dev nD ⊕ Dev nD ⊕ Fin 8)) : tokInv (tokOf x) = x := by
  obtain ⟨p, t | t | t | k⟩ := x
  · rfl
  · simp only [tokInv, tokOf, kind_send]
  · simp only [tokInv, tokOf, kind_recv]
  · simp only [tokInv, tokOf, kind_cp]
    refine congrArg (fun z : Fin 8 => (p, (Sum.inr (Sum.inr (Sum.inr z)) : Dev nD ⊕ Dev nD ⊕ Dev nD ⊕ Fin 8))) (Fin.ext ?_)
    show (2 * (k.val / 2) + k.val % 2) % 8 = k.val
    have := k.isLt
    omega

theorem tokOf_injective : Function.Injective tokOf := Function.LeftInverse.injective tokInv_tokOf
def ourToks : Finset (GSem nD τ sig × ℕ × Dev nD) := Finset.univ.map ⟨tokOf, tokOf_injective⟩

def u₀ : UU :=
  (initOf (Pipeline.cells cfgs cellOf_inj) (Pipeline.launchToks cfgs cellOf_inj), initOf ourCells ourToks)

def G (c : Dev nD) : sProp 𝕄 :=
  iprop((bigSep Finset.univ fun k : Fin 35 => roundState ER (Rd m) (kcell (c, k)) 0)
    ∗ (bigSep Finset.univ fun k : Fin 35 => iprop(atPos ER (kcell (c, k)) 0 ∅ 0 ∗ reached ER (kcell (c, k)) 0)) ∗ toks c)

def G' (c : Dev nD) : sProp 𝕄 := iprop((∃ K, records m K) ∗ pos c ∗ toks c)

theorem fund_ours : BI.own (ER (initOf ourCells ourToks)) ⊢ (|==> bigSep Finset.univ (G m) : sProp 𝕄) := by
  have hX (Φ : GSem nD τ sig → sProp 𝕄) : bigSep ourCells Φ = bigSep Finset.univ fun c : Dev nD => bigSep Finset.univ fun k : Fin 35 => Φ (kcell (c, k)) := by
    unfold ourCells; rw [bigSep_map, bigSep_univ_prod]; rfl
  have hT : bigSep ourToks (fun x => (dutyTok ER x.1 x.2.1 x.2.2 : sProp 𝕄)) = bigSep Finset.univ fun c : Dev nD => toks c := by
    unfold ourToks; rw [bigSep_map, bigSep_univ_prod]
    exact bigSep_congr fun c _ => by
      unfold toks; rw [bigSep_univ_sum, bigSep_univ_sum, bigSep_univ_sum]; rfl
  iintro HX
  imod (Rounds.fund ER (Rd m) ourCells ourToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem kcell_succ (c : Dev nD) (k : Fin 34) : kcell (c, k.succ) = ((c : Thread nD τ), osem k) := by
  show ((c : Thread nD τ), csem k.succ) = _
  unfold csem osem
  rw [if_neg (show ¬ ((k.succ : Fin 35).val = 0) from fun h => Fin.succ_ne_zero k (Fin.ext h))]
  rfl

theorem bigSep_fin35_succ (Φ : Fin 35 → sProp 𝕄) :
    bigSep Finset.univ Φ = iprop(Φ 0 ∗ bigSep Finset.univ fun k : Fin 34 => Φ k.succ) := by
  rw [Fin.univ_succ, Finset.cons_eq_insert, bigSep_insert (by simp [Fin.succ_ne_zero]), bigSep_map]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 35 => semVal (kcell (c, k)) 0 : sProp 𝕄) := by
  rw [unscopedSems0_eq, bigSep_fin35_succ]
  simp only [kcell_succ]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 35 => iprop(∃ κ : ℕ, cellInv ER (Rd m) κ (kcell (c, k))))
          ∗ (bigSep Finset.univ fun k : Fin 35 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 35 => semVal (kcell (c, k)) 0) ∗ bigSep Finset.univ fun k : Fin 35 => roundState ER (Rd m) (kcell (c, k)) 0)
      ⊢ (|={Set.univ}=> bigSep Finset.univ fun k : Fin 35 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k : Fin 35 => iprop(∃ κ : ℕ, cellInv ER (Rd m) κ (kcell (c, k))))
          ∗ (bigSep Finset.univ fun k : Fin 35 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 35 => iprop(∃ κ : ℕ, cellInv ER (Rd m) κ (kcell ck))),
    bigSep_congr (s := Finset.univ) (fun (c : Dev nD) _ => bigSep_sep' Finset.univ (fun k : Fin 35 => (atPos ER (kcell (c, k)) 0 ∅ 0 : sProp 𝕄)) (fun k => reached ER (kcell (c, k)) 0)),
    bigSep_sep', ← bigSep_univ_prod (fun ck : Dev nD × Fin 35 => (reached ER (kcell ck) 0 : sProp 𝕄))]
  iintro ⟨HI, ⟨Hat, #HR⟩, Htok⟩
  ihave HK := (BI.bigSep_exists_pi Finset.univ (fun (ck : Dev nD × Fin 35) (κ : ℕ) => (cellInv ER (Rd m) κ (kcell ck) : sProp 𝕄))) $$ HI
  icases HK with ⟨%K, #HI⟩
  have hd : iprop(records m K ∗ bigSep Finset.univ fun c : Dev nD => iprop((bigSep Finset.univ fun k : Fin 35 => atPos ER (kcell (c, k)) 0 ∅ 0) ∗ toks c))
      ⊢ bigSep Finset.univ (G' m) :=
    bigSep_with_persistent fun c _ => by
      unfold G' pos
      iintro ⟨#HR, Hp, Ht⟩
      isplitr; · iexists K; iexact HR
      isplitl [Hp] <;> iassumption
  iapply hd
  isplitr
  · unfold records; isplitl; · iexact HI
    iexact HR
  · rw [bigSep_sep']
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

def credT (c : Dev nD) : CellTallies nD τ sig Unit :=
  tallyAt (barCell c) () 15 + ∑ j ∈ Finset.univ.erase c, tallyAt (recvCell c j) () Nrow

theorem smul_tallyAt (n : ℕ) (g : GSem nD τ sig) (k : ℕ) : n • (tallyAt g () k : CellTallies nD τ sig Unit) = tallyAt g () (n * k) := by
  funext g'; ext
  rw [Pi.smul_apply, Finsupp.smul_apply, tallyAt_apply, tallyAt_apply, smul_eq_mul]
  split <;> simp

theorem pairs_comm (x y : Dev nD) :
    (x ∈ (Finset.univ : Finset (Dev nD)) ∧ y ∈ Finset.univ.erase x) ↔ (x ∈ Finset.univ.erase y ∧ y ∈ (Finset.univ : Finset (Dev nD))) :=
  ⟨fun ⟨_, h⟩ => ⟨Finset.mem_erase.mpr ⟨(Finset.ne_of_mem_erase h).symm, Finset.mem_univ _⟩, Finset.mem_univ _⟩,
   fun ⟨h, _⟩ => ⟨Finset.mem_univ _, Finset.mem_erase.mpr ⟨(Finset.ne_of_mem_erase h).symm, Finset.mem_univ _⟩⟩⟩

-- Summed over the mesh, what the devices owe is what their cells are credited at launch.
theorem owed_sum : (∑ d : Dev nD, O₀ d) = ∑ d : Dev nD, credT d := by
  unfold O₀ owedAt owedSend owedSig credT
  simp only [peers_ge_0]
  rw [Finset.sum_add_distrib, Finset.sum_add_distrib, add_comm]
  refine congrArg₂ (· + ·) ?_ ?_
  · rw [Finset.sum_comm' pairs_comm]
    refine Finset.sum_congr rfl fun t _ => ?_
    rw [Finset.sum_const, Finset.card_erase_of_mem (Finset.mem_univ _), Finset.card_univ, Fintype.card_fin, smul_tallyAt]
    rfl
  · rw [Finset.sum_comm' pairs_comm]

theorem credT_own (d : Dev nD) (g : GSem nD τ sig) (h : credT d g ≠ 0) : g.1 = (d.tc : Thread nD τ) := by
  by_contra hne
  apply h
  unfold credT
  rw [Pi.add_apply, tallyAt_ne_cell (fun e => hne (congrArg Prod.fst e)), Finset.sum_apply,
    Finset.sum_eq_zero (fun j _ => tallyAt_ne_cell (fun e => hne (congrArg Prod.fst e)) () Nrow), add_zero]

theorem launch_creds (c : Dev nD) : (Pipeline.launchCred O₀ c : sProp 𝕄) ⊢ creds c := by
  rw [Pipeline.launchCred_of_sum O₀ credT owed_sum credT_own c]
  unfold credT creds
  exact (cred_add _ _).1.trans (sep_mono_right (Entails.of_eq (Pipeline.cred_finsetSum _ _)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hx, Hlev, Hcr, -, HG⟩
  ihave Hc := (launch_creds (F := F) c) $$ Hcr
  imodintro
  unfold start G' xAll xc
  icases HG with ⟨HK, Hpos, Htok⟩
  isplitl
  · isplitl [HK]; · iexact HK
    isplitl [Hlev]; · iexact Hlev
    isplitl [Hpos]; · iexact Hpos
    isplitl [Htok]; · iexact Htok
    isplitl [Hc]; · iexact Hc
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(xAll m c ∗ Pipeline.ownSems0 osem c ∗ Pipeline.scopedRest cfg0.spec c) := by
  rw [show (dats m ρ 0 c).Φ (Fin.last cfg0.N) = Φ₁ m c from rfl, scopedRest0_eq]
  unfold Φ₁ scr Pipeline.ownSems0
  iintro ⟨Hx, Hr, Hz⟩
  isplitl [Hx]; · iexact Hx
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide) 0 0
    · show _ ⊢ MayWait (c : Thread nD τ) _ () 0
      rw [MayWait_zero]; iintro -; iempintro

theorem final_out (c : Dev nD) : (dats m ρ 0 c).arrAt (0 : Fin 1) cfg0.N = outV m := by
  show (dats m ρ 0 c).arrAt (0 : Fin 1) (t0_0.val + 1) = outV m
  rw [Dat.arrAt_succ, if_pos (flush0_0 t0_0)]
  exact Memref.write_access_unit_zero_univ (Elt F) main_v1 (funext fun a => Nat.zero_mul _) _ _ _

end Launch

open Launch

set_option maxRecDepth 8000 in

theorem run_main : θ_run (defs (F := F)) (onTc (τ := τ) (main (F := F))) (s₀ m ρ)
    (fun r => ∀ c : Dev nD, r.2.mem ((c.tc : Thread nD τ).loc main_v1) = outV m
      ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ours m) $$ HX with HG
      imodintro
      isplitl [HP] <;> iassumption)
    (hglob := glob m)
    (hA := fun _ _ => rfl) (hpf := fun _ k => k.elim0)
    (X := start m) (Y := xAll m) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      unfold xAll
      iintro ⟨Hx, -, HSI⟩
      icombine HSI Hx gives %hx
      imodintro
      isplitr; · ipureintro; exact Buf.eq_of_forall_mem_univ hx
      iexact HSI)
    (hQ := fun s h c => ⟨((h c).1 (0 : Fin 1)).trans (final_out m ρ c), (h c).2.2⟩)

end Cert.KernelIdealProof

end
-- ==== Proof.Value.lean ====
import proofs.«901075_g7700000000001076_dist_sum_ax0_shard0_i_m1536_n768_v7x_i16_bf16_1_alg».proof.Defs
import proofs.«901075_g7700000000001076_dist_sum_ax0_shard0_i_m1536_n768_v7x_i16_bf16_1_alg».proof.Proof.KernelIdeal.Proto
import proofs.«901075_g7700000000001076_dist_sum_ax0_shard0_i_m1536_n768_v7x_i16_bf16_1_alg».proof.Proof.Gen.ReferenceIdeal
import proofs.«901075_g7700000000001076_dist_sum_ax0_shard0_i_m1536_n768_v7x_i16_bf16_1_alg».proof.Proof.Gen.ReferenceIdeal.Run
import proofs.«901075_g7700000000001076_dist_sum_ax0_shard0_i_m1536_n768_v7x_i16_bf16_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.Proof.Value

open Idealize.ShloMosaic Idealize.ShloMosaic.TcCoe Idealize.SL.Sem
open Idealize.ShloMosaic.ValueIdx
open Cert.KernelIdeal Cert.KernelIdeal.Gen Cert.KernelIdealProof
open scoped BigOperators

theorem sum_range_mul {M : Type*} [AddCommMonoid M] (g : ℕ → M) (a b : ℕ) :
    ∑ n ∈ Finset.range (a * b), g n = ∑ i ∈ Finset.range a, ∑ r ∈ Finset.range b, g (i * b + r) := by
  induction a with
  | zero => rw [Nat.zero_mul, Finset.sum_range_zero, Finset.sum_range_zero]
  | succ a ih => rw [Nat.succ_mul, Finset.sum_range_add, ih, Finset.sum_range_succ]

theorem sum_eight {M : Type*} [AddCommMonoid M] (t : ℕ → M) :
    t 0 + t 1 + t 2 + t 3 + t 4 + t 5 + t 6 + t 7 = ∑ k ∈ Finset.range 8, t k := by
  simp only [Finset.sum_range_succ, Finset.sum_range_zero, zero_add]

-- Entry (row `n`, column `q`) of the whole array, by numbers.
def colAt (X : Cert.ReferenceIdeal.S24576x768.Idx → EReal) (q n : ℕ) : EReal :=
  if h : n < 24576 ∧ q < 768 then X (ix2 ⟨n, h.1⟩ ⟨q, h.2⟩) else 0

theorem X_apply (X : Cert.ReferenceIdeal.S24576x768.Idx → EReal) (i : Cert.ReferenceIdeal.S24576x768.Idx) :
    X i = colAt X (i 1).val (i 0).val := by
  unfold colAt
  rw [dif_pos ⟨(i 0).isLt, (i 1).isLt⟩]
  exact congrArg X (eq_ix2 i)

-- The column sums of a chunk, column by column.
theorem colsum_apply (W : Vec Ideal S1x192x768 .f32) (q : Fin 768)
    (h1 : S1x192x768.ShapeCasts S192x768) (h2 : S192x768.Reduces [0] S768) (hφ : FKind.Formats .f32)
    (hacc : (0x00000000#32 : BitVec 32) = 0x00000000#32) (h3 : S768.ShapeCasts S1x768) :
    shapeCast S1x768 (multiReduction (F := Ideal) .add [0] S768 (shapeCast S192x768 W h1) 0x00000000#32 h2 hφ hacc) h3 (ix2 (0 : Fin 1) q)
      = ∑ r : Fin 192, W (ix3 (0 : Fin 1) r q) := by
  refine (shapeCast_a_1a_apply _ h3 0 q).trans ?_
  refine (Ideal.multiReduction_add_single (shapeCast S192x768 W h1) 0x00000000#32 h2 hφ hacc (ix1 q)).trans ?_
  exact Finset.sum_congr rfl fun r _ => shapeCast_1ab_ab_apply W h1 r q

theorem ld_apply (V : Vec Ideal S192x768 .f32) (r : Fin 192) (q : Fin 768) :
    ld (F := Ideal) V (ix3 (0 : Fin 1) r q) = V (ix2 r q) := by
  unfold ld
  exact shapeCast_ab_1ab_apply V _ 0 r q

section
variable (m : (ℓ : Loc nD τ sig) → Buf (Elt Ideal) ℓ)
  (X : (⟨Cert.ReferenceIdeal.S24576x768, .f32⟩ : BufTy).Contents (Elt Ideal))
  (h : ∀ c : Dev nD, m ((c.tc : Thread nD τ).loc main_arg0) = Layout.block ⟨2, ![1536, 768]⟩ ⟨2, ![24576, 768]⟩ 0 16 c X)

include h in

-- Row `r` of chunk `k` of device `c`'s block is row `1536 c + 192 k + r` of the whole array.
theorem chunkR_apply (c : Dev nD) (k : Fin 8) (r : Fin 192) (q : Fin 768) :
    chunkR (F := Ideal) m c k (ix2 r q) = colAt X q.val (c.val * 1536 + (k.val * 192 + r.val)) := by
  unfold chunkR xc
  rw [View.read_apply, h c, Layout.block_apply, X_apply X, cast_eq]
  have e1 : ((Layout.Tiles.idx (S := ⟨2, ![1536, 768]⟩) (T := ⟨2, ![24576, 768]⟩) (a := 0) (k := 16) (by decide) c
      ((chunkM k).view.emb (ix2 r q))) 1).val = q.val := by
    show 0 + 1 * q.val = q.val
    omega
  have e0 : ((Layout.Tiles.idx (S := ⟨2, ![1536, 768]⟩) (T := ⟨2, ![24576, 768]⟩) (a := 0) (k := 16) (by decide) c
      ((chunkM k).view.emb (ix2 r q))) 0).val = c.val * 1536 + (k.val * 192 + r.val) := by
    show c.val * 1536 + (192 * k.val + 1 * r.val) = c.val * 1536 + (k.val * 192 + r.val)
    omega
  rw [e0, e1]
end

section Pay
variable (a : FVec Ideal S1x768 .f32) (A B : Vec Ideal S1x192x768 .f32) (q : Fin 768)

-- Each partial sum the body carries is the one before plus the column sums of the chunks it adds.
theorem pay2_apply : k0_pay2 (F := Ideal) A B (ix2 (0 : Fin 1) q)
    = (∑ r : Fin 192, A (ix3 (0 : Fin 1) r q)) + ∑ r : Fin 192, B (ix3 (0 : Fin 1) r q) := by
  exact congrArg₂ (· + ·) (colsum_apply A q _ _ _ _ _) (colsum_apply B q _ _ _ _ _)
theorem pay3_apply : k0_pay3 (F := Ideal) a A (ix2 (0 : Fin 1) q)
    = a (ix2 (0 : Fin 1) q) + ∑ r : Fin 192, A (ix3 (0 : Fin 1) r q) := by
  exact congrArg (a (ix2 (0 : Fin 1) q) + ·) (colsum_apply A q _ _ _ _ _)
theorem pay4_apply : k0_pay4 (F := Ideal) a A B (ix2 (0 : Fin 1) q)
    = a (ix2 (0 : Fin 1) q) + (∑ r : Fin 192, A (ix3 (0 : Fin 1) r q)) + ∑ r : Fin 192, B (ix3 (0 : Fin 1) r q) := by
  exact congrArg₂ (· + ·) (congrArg (a (ix2 (0 : Fin 1) q) + ·) (colsum_apply A q _ _ _ _ _)) (colsum_apply B q _ _ _ _ _)
theorem pay5_apply : k0_pay5 (F := Ideal) a A B (ix2 (0 : Fin 1) q)
    = a (ix2 (0 : Fin 1) q) + (∑ r : Fin 192, A (ix3 (0 : Fin 1) r q)) + ∑ r : Fin 192, B (ix3 (0 : Fin 1) r q) := by
  exact congrArg₂ (· + ·) (congrArg (a (ix2 (0 : Fin 1) q) + ·) (colsum_apply A q _ _ _ _ _)) (colsum_apply B q _ _ _ _ _)
theorem pay6_apply : k0_pay6 (F := Ideal) a A (ix2 (0 : Fin 1) q)
    = a (ix2 (0 : Fin 1) q) + ∑ r : Fin 192, A (ix3 (0 : Fin 1) r q) := by
  unfold k0_pay6
  refine (congrFun (shapeCast_self _ _) _).trans ?_
  exact congrArg (a (ix2 (0 : Fin 1) q) + ·) (colsum_apply A q _ _ _ _ _)

theorem tablesum_apply (T : Vec Ideal S16x768 .f32) (h2 : S16x768.Reduces [0] S768) (hφ : FKind.Formats .f32)
    (hacc : (0x00000000#32 : BitVec 32) = 0x00000000#32) (h3 : S768.ShapeCasts S1x768) :
    shapeCast S1x768 (multiReduction (F := Ideal) .add [0] S768 T 0x00000000#32 h2 hφ hacc) h3 (ix2 (0 : Fin 1) q)
      = ∑ j : Fin 16, T (ix2 j q) := by
  refine (shapeCast_a_1a_apply _ h3 0 q).trans ?_
  refine (Ideal.multiReduction_add_single T 0x00000000#32 h2 hφ hacc (ix1 q)).trans ?_
  exact Finset.sum_congr rfl fun j _ => congrArg T (funext fun b => Fin.ext (by match b with | ⟨0, _⟩ => rfl | ⟨1, _⟩ => rfl))
theorem pay1_apply (T : Vec Ideal S16x768 .f32) : k0_pay1 (F := Ideal) T (ix2 (0 : Fin 1) q) = ∑ j : Fin 16, T (ix2 j q) := by
  exact tablesum_apply q T _ _ _ _
end Pay

section
variable (m : (ℓ : Loc nD τ sig) → Buf (Elt Ideal) ℓ)
  (X : (⟨Cert.ReferenceIdeal.S24576x768, .f32⟩ : BufTy).Contents (Elt Ideal))
  (h : ∀ c : Dev nD, m ((c.tc : Thread nD τ).loc main_arg0) = Layout.block ⟨2, ![1536, 768]⟩ ⟨2, ![24576, 768]⟩ 0 16 c X)

include h in

theorem chunk_sum (c : Dev nD) (k : Fin 8) (q : Fin 768) :
    ∑ r : Fin 192, ld (F := Ideal) (chunkR m c k) (ix3 (0 : Fin 1) r q)
      = ∑ r ∈ Finset.range 192, colAt X q.val (c.val * 1536 + (k.val * 192 + r)) := by
  rw [← Fin.sum_univ_eq_sum_range (fun r => colAt X q.val (c.val * 1536 + (k.val * 192 + r))) 192]
  exact Finset.sum_congr rfl fun r _ => by rw [ld_apply, chunkR_apply m X h]

include h in

-- A device's contribution at a column: the sum of that column over its 1536 rows.
theorem accV_apply (c : Dev nD) (q : Fin 768) :
    accV (F := Ideal) m c (ix2 (0 : Fin 1) q)
      = ∑ k ∈ Finset.range 8, ∑ r ∈ Finset.range 192, colAt X q.val (c.val * 1536 + (k * 192 + r)) := by
  unfold accV
  rw [pay6_apply, pay5_apply, pay4_apply, pay3_apply, pay2_apply]
  rw [chunk_sum m X h c 0 q, chunk_sum m X h c 1 q, chunk_sum m X h c 2 q, chunk_sum m X h c 3 q,
    chunk_sum m X h c 4 q, chunk_sum m X h c 5 q, chunk_sum m X h c 6 q, chunk_sum m X h c 7 q]
  exact sum_eight fun k => ∑ r ∈ Finset.range 192, colAt X q.val (c.val * 1536 + (k * 192 + r))

include h in

-- Sixteen devices of eight chunks of 192 rows regroup into all 24576 rows: both results are the whole array's column sums.
theorem outV_apply (q : Fin 768) :
    outV (F := Ideal) m (ix2 (0 : Fin 1) q) = ∑ n ∈ Finset.range 24576, colAt X q.val n := by
  unfold outV
  rw [pay1_apply]
  have e : ∀ j : Fin 16, commV (F := Ideal) m (ix2 j q)
      = (fun j : ℕ => ∑ p ∈ Finset.range 1536, colAt X q.val (j * 1536 + p)) j.val := fun j => by
    show accV (F := Ideal) m j (ix2 (0 : Fin 1) q) = _
    rw [accV_apply m X h j q]
    exact (sum_range_mul (fun p => colAt X q.val (j.val * 1536 + p)) 8 192).symm
  refine (Finset.sum_congr rfl fun j _ => e j).trans ?_
  refine (Fin.sum_univ_eq_sum_range (fun j : ℕ => ∑ p ∈ Finset.range 1536, colAt X q.val (j * 1536 + p)) 16).trans ?_
  exact (sum_range_mul (colAt X q.val) 16 1536).symm

theorem ref_apply (q : Fin 768) :
    Cert.ReferenceIdeal.Read.val_main_v1 (F := Ideal) X (ix2 (0 : Fin 1) q) = ∑ n ∈ Finset.range 24576, colAt X q.val n := by
  rw [Cert.ReferenceIdeal.Read.val_main_v1_apply, Cert.ReferenceIdeal.Read.val_main_v0_apply,
    Cert.ReferenceIdeal.Read.val_main_cst_apply]
  rw [← Fin.sum_univ_eq_sum_range (colAt X q.val) 24576]
  show Ideal.ofBits .f32 0x00000000#32 + _ = _
  rw [Ideal.ofBits_zero_f32, zero_add]
  exact Finset.sum_congr rfl fun n _ => X_apply X _
end

theorem out_eq_reference
    (m : (ℓ : Loc Cert.KernelIdeal.nD Cert.KernelIdeal.τ Cert.KernelIdeal.sig) → Buf (Elt Ideal) ℓ)
    (X : (⟨Cert.ReferenceIdeal.S24576x768, .f32⟩ : BufTy).Contents (Elt Ideal))
    (h : ∀ c : Dev Cert.KernelIdeal.nD,
      m ((c.tc : Thread Cert.KernelIdeal.nD Cert.KernelIdeal.τ).loc Cert.KernelIdeal.main_arg0)
        = Layout.block ⟨2, ![1536, 768]⟩ ⟨2, ![24576, 768]⟩ 0 16 c X) :
    Cert.KernelIdealProof.outV (F := Ideal) m = Cert.ReferenceIdeal.Read.val_main_v1 (F := Ideal) X := by
  funext i
  obtain ⟨p, q, rfl⟩ : ∃ (p : Fin 1) (q : Fin 768), i = ix2 p q := ⟨i 0, i 1, eq_ix2 i⟩
  obtain rfl : p = 0 := Fin.fin_one_eq_zero p
  exact (outV_apply m X h q).trans (ref_apply X q).symm

end Cert.Proof.Value

end
-- ==== Proof.lean ====
import proofs.«901075_g7700000000001076_dist_sum_ax0_shard0_i_m1536_n768_v7x_i16_bf16_1_alg».proof.Defs
import proofs.«901075_g7700000000001076_dist_sum_ax0_shard0_i_m1536_n768_v7x_i16_bf16_1_alg».proof.Proof.Gen.Kernel
import proofs.«901075_g7700000000001076_dist_sum_ax0_shard0_i_m1536_n768_v7x_i16_bf16_1_alg».proof.Proof.Gen.KernelIdeal
import proofs.«901075_g7700000000001076_dist_sum_ax0_shard0_i_m1536_n768_v7x_i16_bf16_1_alg».proof.Proof.Gen.ReferenceIdeal
import proofs.«901075_g7700000000001076_dist_sum_ax0_shard0_i_m1536_n768_v7x_i16_bf16_1_alg».proof.Proof.Gen.ReferenceIdeal.Run
import proofs.«901075_g7700000000001076_dist_sum_ax0_shard0_i_m1536_n768_v7x_i16_bf16_1_alg».proof.Proof.Gen.ReferenceIdeal.Read
import proofs.«901075_g7700000000001076_dist_sum_ax0_shard0_i_m1536_n768_v7x_i16_bf16_1_alg».proof.Proof.Gen.Pre_finite_inputs_Kernel
import proofs.«901075_g7700000000001076_dist_sum_ax0_shard0_i_m1536_n768_v7x_i16_bf16_1_alg».proof.Proof.Gen.Pre_finite_inputs_ReferenceIdeal
import proofs.«901075_g7700000000001076_dist_sum_ax0_shard0_i_m1536_n768_v7x_i16_bf16_1_alg».proof.Proof.KernelIdeal.Launch
import proofs.«901075_g7700000000001076_dist_sum_ax0_shard0_i_m1536_n768_v7x_i16_bf16_1_alg».proof.Proof.Value
import Idealize.ShloMosaic.Adequacy
import Idealize.ShloMosaic.Init

noncomputable section

namespace Cert.Proof

open Idealize.ShloMosaic Idealize.ShloMosaic.TcCoe Idealize.SL.Sem

-- The two printed programs are one text: their body tables agree, label by label.
theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun k => funext fun ts => ?_)
  obtain ⟨k, hk⟩ := k
  cases k with
  | zero => rfl
  | succ k => exact absurd hk (Nat.not_lt.2 (Nat.le_add_left _ _))

-- So the frame of the program as printed is the generic run at the instance it is read at.
theorem frame_k : Cert.frame_Kernel (hKernel := Cert.Kernel.Gen.facts) (hPre_finite_inputs_Kernel := Cert.Pre_finite_inputs_Kernel.Gen.facts) := fun m ρ _ => by
  have h := Cert.KernelIdealProof.run_main (F := Bits) m ρ
  unfold Cert.KernelIdeal.defs at h
  rw [← defs₀_eq] at h
  refine (θ_run (Cert.Kernel.defs (F := Bits)) _ _).mono ?_ h
  intro r hr c
  exact (hr c).2

theorem frame_ki : Cert.frame_KernelIdeal (hKernelIdeal := Cert.KernelIdeal.Gen.facts) (hPre_finite_inputs_Kernel := Cert.Pre_finite_inputs_Kernel.Gen.facts) := fun m ρ _ =>
  (θ_run (Cert.KernelIdeal.defs (F := Ideal)) _ _).mono (fun _ h c => (h c).2) (Cert.KernelIdealProof.run_main (F := Ideal) m ρ)

theorem frame_ri : Cert.frame_ReferenceIdeal (hReferenceIdeal := Cert.ReferenceIdeal.Gen.facts) (hPre_finite_inputs_ReferenceIdeal := Cert.Pre_finite_inputs_ReferenceIdeal.Gen.facts) := fun m ρ _ =>
  (θ_run (Cert.ReferenceIdeal.defs (F := Ideal)) _ _).mono (fun _ h c => (h c).2) (Cert.ReferenceIdeal.Value.run (F := Ideal) m ρ)

theorem algebraic : Cert.algebraic_KernelIdeal_ReferenceIdeal (hKernelIdeal := Cert.KernelIdeal.Gen.facts) (hReferenceIdeal := Cert.ReferenceIdeal.Gen.facts) (hPre_finite_inputs_Kernel := Cert.Pre_finite_inputs_Kernel.Gen.facts) := by
  intro m ρ m' ρ' _ hagree
  refine ⟨Cert.ReferenceIdeal.Read.val_main_v1 (F := Ideal) (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨(h c).1.trans ?_, (h c).2⟩) (Cert.KernelIdealProof.run_main (F := Ideal) m ρ)
    exact Cert.Proof.Value.out_eq_reference m _ hagree
  · exact (θ_run (Cert.ReferenceIdeal.defs (F := Ideal)) _ _).mono (fun _ h => ⟨(h 0).1, (h 0).2⟩) (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs_Kernel.Gen.facts, Cert.Pre_finite_inputs_ReferenceIdeal.Gen.facts,
    frame_k, frame_ki, frame_ri, trivial, algebraic⟩

end Cert.Proof

end
